-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  let main_v40 : IVec S1x1600000 32 := (extractStridedSlice S1x1600000 ![0, 0] · slices_S2x1600000_S1x1600000_0_0) main_arg1
  let main_v41 : IVec S1600000 32 := shapeCast S1600000 main_v40 shapeCasts_S1x1600000_S1600000
  let main_c_14 : IVec S_ 32 := constantI S_ 32 100000#32
  let main_v42 : IVec S1600000 32 := broadcastInDim S1600000 ![] bcast_S_S1600000 main_c_14
  let main_v43 : IVec S1600000 1 := cmpi .slt main_v41 main_v42
  let main_c_15 : IVec S_ 1 := constantI S_ 1 1#1
  let main_v44 : IVec S_ 1 := (fun x v => Host.reduce IntOp.andi x v reducesTo_S1600000_S_d0 h_S_) main_v43 main_c_15
  let main_v45 : IVec S_ 1 := andi main_v39 main_v44
  main_v45

def fn_part1 {F : FTy → Type} [FloatOps F] (main_arg1 : IVec S2x1600000 32) (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1 : Shape := ⟨1, ![1]⟩
abbrev S1x1 : Shape := ⟨2, ![1, 1]⟩
abbrev S1700000x64 : Shape := ⟨2, ![1700000, 64]⟩
abbrev S8192x64 : Shape := ⟨2, ![8192, 64]⟩
abbrev S8192x1 : Shape := ⟨2, ![8192, 1]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S8192x40 : Shape := ⟨2, ![8192, 40]⟩
abbrev S1x40 : Shape := ⟨2, ![1, 40]⟩

abbrev nBuf : Space → Nat
  | .hbm => 144
  | .vmem => 48
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1, .i32⟩
  | 58 => ⟨S_, .i32⟩
  | 59 => ⟨S1700000x1, .i32⟩
  | 60 => ⟨S1700000x1, .i1⟩
  | 61 => ⟨S1x1, .i32⟩
  | 62 => ⟨S1700000x1, .i32⟩
  | 63 => ⟨S1700000x1, .i1⟩
  | 64 => ⟨S1700000x1, .i1⟩
  | 65 => ⟨S_, .i1⟩
  | 66 => ⟨S1700000, .i1⟩
  | 67 => ⟨S1700000x64, .f32⟩
  | 68 => ⟨S1700000x64, .i1⟩
  | 69 => ⟨S_, .f32⟩
  | 70 => ⟨S1700000x64, .f32⟩
  | 71 => ⟨S1700000x64, .f32⟩
  | 72 => ⟨S1700000x1, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S1x64, .f32⟩
  | 79 => ⟨S100000x64, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1, .i32⟩
  | 90 => ⟨S_, .i32⟩
  | 91 => ⟨S1700000x1, .i32⟩
  | 92 => ⟨S1700000x1, .i1⟩
  | 93 => ⟨S1x1, .i32⟩
  | 94 => ⟨S1700000x1, .i32⟩
  | 95 => ⟨S1700000x1, .i1⟩
  | 96 => ⟨S1700000x1, .i1⟩
  | 97 => ⟨S_, .i1⟩
  | 98 => ⟨S1700000, .i1⟩
  | 99 => ⟨S1700000x64, .f32⟩
  | 100 => ⟨S1700000x64, .i1⟩
  | 101 => ⟨S_, .f32⟩
  | 102 => ⟨S1700000x64, .f32⟩
  | 103 => ⟨S1700000x64, .f32⟩
  | 104 => ⟨S1700000x1, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x40, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1, .i32⟩
  | 122 => ⟨S_, .i32⟩
  | 123 => ⟨S1700000x1, .i32⟩
  | 124 => ⟨S1700000x1, .i1⟩
  | 125 => ⟨S1x1, .i32⟩
  | 126 => ⟨S1700000x1, .i32⟩
  | 127 => ⟨S1700000x1, .i1⟩
  | _ => ⟨S100000x64, .f32⟩

abbrev hbmTy0_1 (i : Nat) : BufTy := match i % 128 with
  | 0 => ⟨S1700000x1, .i1⟩
  | 1 => ⟨S_, .i1⟩
  | 2 => ⟨S1700000, .i1⟩
  | 3 => ⟨S1700000x40, .f32⟩
  | 4 => ⟨S1700000x40, .i1⟩
  | 5 => ⟨S_, .f32⟩
  | 6 => ⟨S1700000x40, .f32⟩
  | 7 => ⟨S1700000x40, .f32⟩
  | 8 => ⟨S1700000x1, .f32⟩
  | 9 => ⟨S1700000x40, .f32⟩
  | 10 => ⟨S_, .f32⟩
  | 11 => ⟨S100000x40, .f32⟩
  | 12 => ⟨S1700000x1, .i32⟩
  | 13 => ⟨S100000x40, .f32⟩
  | 14 => ⟨S1x40, .f32⟩
  | 15 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S8192x64, .f32⟩
  | .local _ .vmem, ⟨22, _⟩ => ⟨S8192x64, .f32⟩
  | .local _ .vmem, ⟨23, _⟩ => ⟨S8192x1, .f32⟩
  | .local _ .vmem, ⟨24, _⟩ => ⟨S8192x1, .f32⟩
  | .local _ .vmem, ⟨25, _⟩ => ⟨S8192x64, .f32⟩
  | .local _ .vmem, ⟨26, _⟩ => ⟨S8192x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x40, .f32⟩
  | .local _ .vmem, ⟨35, _⟩ => ⟨S10000x40, .f32⟩
  | .local _ .vmem, ⟨36, _⟩ => ⟨S10000x40, .f32⟩
  | .local _ .vmem, ⟨37, _⟩ => ⟨S8192x40, .f32⟩
  | .local _ .vmem, ⟨38, _⟩ => ⟨S8192x40, .f32⟩
  | .local _ .vmem, ⟨39, _⟩ => ⟨S8192x1, .f32⟩
  | .local _ .vmem, ⟨40, _⟩ => ⟨S8192x1, .f32⟩
  | .local _ .vmem, ⟨41, _⟩ => ⟨S8192x40, .f32⟩
  | .local _ .vmem, ⟨42, _⟩ => ⟨S8192x40, .f32⟩
  | .local _ .vmem, ⟨43, _⟩ => ⟨S10000x40, .f32⟩
  | .local _ .vmem, ⟨44, _⟩ => ⟨S10000x40, .f32⟩
  | .local _ .vmem, ⟨45, _⟩ => ⟨S1x40, .f32⟩
  | .local _ .vmem, ⟨46, _⟩ => ⟨S10000x40, .f32⟩
  | .local _ .vmem, ⟨47, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_7 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_8 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![208], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![208], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x40 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x40 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000_S1700000x40_0 : S1700000.BroadcastsInDim S1700000x40 (![0] : Fin 1 → Fin S1700000x40.rank)
  bcast_S_S1700000x40 : S_.BroadcastsInDim S1700000x40 (![] : Fin 0 → Fin S1700000x40.rank)
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  broadcasts_S8192x1_S8192x40 : S8192x1.Broadcasts S8192x40
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x64.size a < S1700000x64.size a
  hwx1_0 : ∀ i : grid1.Coords, EltTy.bits .f32 = 32 ∨ (Rect.unit (s := S1700000x64) (fun a => cc1_transform_0 i a * S8192x64.size a) (fun a => (Pipeline.Clip.of (cc1_transform_0 i a) (S8192x64.size a) (S1700000x64.size a)).extent (S8192x64.size a)) fun a => Pipeline.Clip.inb (Pipeline.Clip.ok_of (hstart1_0 i a))).WholeWords (EltTy.packing .f32)
  hwxs1_0 : ∀ i : grid1.Coords, EltTy.bits .f32 = 32 ∨ (Rect.unit (s := S8192x64) (fun _ => 0) (fun a => (Pipeline.Clip.of (cc1_transform_0 i a) (S8192x64.size a) (S1700000x64.size a)).extent (S8192x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x1.size a < S1700000x1.size a
  hwx1_1 : ∀ i : grid1.Coords, EltTy.bits .f32 = 32 ∨ (Rect.unit (s := S1700000x1) (fun a => cc1_transform_1 i a * S8192x1.size a) (fun a => (Pipeline.Clip.of (cc1_transform_1 i a) (S8192x1.size a) (S1700000x1.size a)).extent (S8192x1.size a)) fun a => Pipeline.Clip.inb (Pipeline.Clip.ok_of (hstart1_1 i a))).WholeWords (EltTy.packing .f32)
  hwxs1_1 : ∀ i : grid1.Coords, EltTy.bits .f32 = 32 ∨ (Rect.unit (s := S8192x1) (fun _ => 0) (fun a => (Pipeline.Clip.of (cc1_transform_1 i a) (S8192x1.size a) (S1700000x1.size a)).extent (S8192x1.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8192x64.size a < S1700000x64.size a
  hwx1_2 : ∀ i : grid1.Coords, EltTy.bits .f32 = 32 ∨ (Rect.unit (s := S1700000x64) (fun a => cc1_transform_2 i a * S8192x64.size a) (fun a => (Pipeline.Clip.of (cc1_transform_2 i a) (S8192x64.size a) (S1700000x64.size a)).extent (S8192x64.size a)) fun a => Pipeline.Clip.inb (Pipeline.Clip.ok_of (hstart1_2 i a))).WholeWords (EltTy.packing .f32)
  hwxs1_2 : ∀ i : grid1.Coords, EltTy.bits .f32 = 32 ∨ (Rect.unit (s := S8192x64) (fun _ => 0) (fun a => (Pipeline.Clip.of (cc1_transform_2 i a) (S8192x64.size a) (S1700000x64.size a)).extent (S8192x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x64.size a < S1700000x64.size a
  hwx4_0 : ∀ i : grid4.Coords, EltTy.bits .f32 = 32 ∨ (Rect.unit (s := S1700000x64) (fun a => cc4_transform_0 i a * S8192x64.size a) (fun a => (Pipeline.Clip.of (cc4_transform_0 i a) (S8192x64.size a) (S1700000x64.size a)).extent (S8192x64.size a)) fun a => Pipeline.Clip.inb (Pipeline.Clip.ok_of (hstart4_0 i a))).WholeWords (EltTy.packing .f32)
  hwxs4_0 : ∀ i : grid4.Coords, EltTy.bits .f32 = 32 ∨ (Rect.unit (s := S8192x64) (fun _ => 0) (fun a => (Pipeline.Clip.of (cc4_transform_0 i a) (S8192x64.size a) (S1700000x64.size a)).extent (S8192x64.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S8192x1.size a < S1700000x1.size a
  hwx4_1 : ∀ i : grid4.Coords, EltTy.bits .f32 = 32 ∨ (Rect.unit (s := S1700000x1) (fun a => cc4_transform_1 i a * S8192x1.size a) (fun a => (Pipeline.Clip.of (cc4_transform_1 i a) (S8192x1.size a) (S1700000x1.size a)).extent (S8192x1.size a)) fun a => Pipeline.Clip.inb (Pipeline.Clip.ok_of (hstart4_1 i a))).WholeWords (EltTy.packing .f32)
  hwxs4_1 : ∀ i : grid4.Coords, EltTy.bits .f32 = 32 ∨ (Rect.unit (s := S8192x1) (fun _ => 0) (fun a => (Pipeline.Clip.of (cc4_transform_1 i a) (S8192x1.size a) (S1700000x1.size a)).extent (S8192x1.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S8192x64.size a < S1700000x64.size a
  hwx4_2 : ∀ i : grid4.Coords, EltTy.bits .f32 = 32 ∨ (Rect.unit (s := S1700000x64) (fun a => cc4_transform_2 i a * S8192x64.size a) (fun a => (Pipeline.Clip.of (cc4_transform_2 i a) (S8192x64.size a) (S1700000x64.size a)).extent (S8192x64.size a)) fun a => Pipeline.Clip.inb (Pipeline.Clip.ok_of (hstart4_2 i a))).WholeWords (EltTy.packing .f32)
  hwxs4_2 : ∀ i : grid4.Coords, EltTy.bits .f32 = 32 ∨ (Rect.unit (s := S8192x64) (fun _ => 0) (fun a => (Pipeline.Clip.of (cc4_transform_2 i a) (S8192x64.size a) (S1700000x64.size a)).extent (S8192x64.size a)) fun a => (Nat.zero_add _).trans_le (Pipeline.Clip.extent_le (Pipeline.Clip.ok_of (hstart4_2 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x40.size a ≤ S64x40.size a
  hwx6_1 : ∀ i : grid6.Coords, EltTy.bits .f32 = 32 ∨ (Rect.block (s := S64x40) S64x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S100000x40.size a
  hwx6_2 : ∀ i : grid6.Coords, EltTy.bits .f32 = 32 ∨ (Rect.block (s := S100000x40) S10000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hstart7_0 : ∀ (i : grid7.Coords) a, cc7_transform_0 i a * S8192x40.size a < S1700000x40.size a
  hwx7_0 : ∀ i : grid7.Coords, EltTy.bits .f32 = 32 ∨ (Rect.unit (s := S1700000x40) (fun a => cc7_transform_0 i a * S8192x40.size a) (fun a => (Pipeline.Clip.of (cc7_transform_0 i a) (S8192x40.size a) (S1700000x40.size a)).extent (S8192x40.size a)) fun a => Pipeline.Clip.inb (Pipeline.Clip.ok_of (hstart7_0 i a))).WholeWords (EltTy.packing .f32)
  hwxs7_0 : ∀ i : grid7.Coords, EltTy.bits .f32 = 32 ∨ (Rect.unit (s := S8192x40) (fun _ => 0) (fun a => (Pipeline.Clip.of (cc7_transform_0 i a) (S8192x40.size a) (S1700000x40.size a)).extent (S8192x40.size a)) fun a => (Nat.zero_add _).trans_le (Pipeline.Clip.extent_le (Pipeline.Clip.ok_of (hstart7_0 i a)))).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hstart7_1 : ∀ (i : grid7.Coords) a, cc7_transform_1 i a * S8192x1.size a < S1700000x1.size a
  hwx7_1 : ∀ i : grid7.Coords, EltTy.bits .f32 = 32 ∨ (Rect.unit (s := S1700000x1) (fun a => cc7_transform_1 i a * S8192x1.size a) (fun a => (Pipeline.Clip.of (cc7_transform_1 i a) (S8192x1.size a) (S1700000x1.size a)).extent (S8192x1.size a)) fun a => Pipeline.Clip.inb (Pipeline.Clip.ok_of (hstart7_1 i a))).WholeWords (EltTy.packing .f32)
  hwxs7_1 : ∀ i : grid7.Coords, EltTy.bits .f32 = 32 ∨ (Rect.unit (s := S8192x1) (fun _ => 0) (fun a => (Pipeline.Clip.of (cc7_transform_1 i a) (S8192x1.size a) (S1700000x1.size a)).extent (S8192x1.size a)) fun a => (Nat.zero_add _).trans_le (Pipeline.Clip.extent_le (Pipeline.Clip.ok_of (hstart7_1 i a)))).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hstart7_2 : ∀ (i : grid7.Coords) a, cc7_transform_2 i a * S8192x40.size a < S1700000x40.size a
  hwx7_2 : ∀ i : grid7.Coords, EltTy.bits .f32 = 32 ∨ (Rect.unit (s := S1700000x40) (fun a => cc7_transform_2 i a * S8192x40.size a) (fun a => (Pipeline.Clip.of (cc7_transform_2 i a) (S8192x40.size a) (S1700000x40.size a)).extent (S8192x40.size a)) fun a => Pipeline.Clip.inb (Pipeline.Clip.ok_of (hstart7_2 i a))).WholeWords (EltTy.packing .f32)
  hwxs7_2 : ∀ i : grid7.Coords, EltTy.bits .f32 = 32 ∨ (Rect.unit (s := S8192x40) (fun _ => 0) (fun a => (Pipeline.Clip.of (cc7_transform_2 i a) (S8192x40.size a) (S1700000x40.size a)).extent (S8192x40.size a)) fun a => (Nat.zero_add _).trans_le (Pipeline.Clip.extent_le (Pipeline.Clip.ok_of (hstart7_2 i a)))).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x40.size a ≤ S100000x40.size a
  hwx8_0 : ∀ i : grid8.Coords, EltTy.bits .f32 = 32 ∨ (Rect.block (s := S100000x40) S10000x40.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x40.size a ≤ S1x40.size a
  hwx8_1 : ∀ i : grid8.Coords, EltTy.bits .f32 = 32 ∨ (Rect.block (s := S1x40) S1x40.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x40.size a ≤ S100000x40.size a
  hwx8_2 : ∀ i : grid8.Coords, EltTy.bits .f32 = 32 ∨ (Rect.block (s := S100000x40) S10000x40.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v31) S8192x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v32) S8192x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v33) S8192x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpecClip (Memref.whole main_v40) S8192x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v41) S8192x1.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v42) S8192x64.size cc4_transform_2 reads4_2 true false 2 stage4_2 sem4_2
    hrank4 hreads4_2 hstart4_2 nbuf4_2 (Memref.isWhole_whole _) hwx4_2 hwxs4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S10000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpecClip (Memref.whole main_v49) S8192x40.size cc7_transform_0 reads7_0 false false 2 stage7_0 sem7_0
    hrank7 hreads7_0 hstart7_0 nbuf7_0 (Memref.isWhole_whole _) hwx7_0 hwxs7_0 hstage7_0

abbrev win7_1 : Pipeline.Window sig grid7 :=
  Pipeline.Window.ofSpecClip (Memref.whole main_v50) S8192x1.size cc7_transform_1 reads7_1 false false 2 stage7_1 sem7_1
    hrank7 hreads7_1 hstart7_1 nbuf7_1 (Memref.isWhole_whole _) hwx7_1 hwxs7_1 hstage7_1

abbrev win7_2 : Pipeline.Window sig grid7 :=
  Pipeline.Window.ofSpecClip (Memref.whole main_v51) S8192x40.size cc7_transform_2 reads7_2 true false 2 stage7_2 sem7_2
    hrank7 hreads7_2 hstart7_2 nbuf7_2 (Memref.isWhole_whole _) hwx7_2 hwxs7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v54) S10000x40.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v55) S1x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v56) S10000x40.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x40, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x40, .f32⟩
  | .hbm, ⟨104, _⟩ => ⟨S1700000x1, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Bits.Dense1.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At point `t` the output block is the body's value of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem hz0 : (![0, 0] : Fin 2 → Nat) = fun _ => 0 := funext fun a => by fin_cases a <;> rfl

set_option maxHeartbeats 1000000 in
/-- The body writes its value of the two inputs into the output and leaves the inputs as they are. -/
theorem kernel_run0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz0 inb_S10000x64_S10000x64_0_0 y⟩
  · rw [View.canon_unit_zero hz0, View.readAt_eq_ld, View.readAt_eq_ld, View.ld_unit_zero hz0, View.ld_unit_zero hz0]

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (k0_pay1 (iblk0 V c 0 t) (iblk0 V c 1 t)))
  simp only [before0_0, before0_1]
  iintro ⟨HΦ, Ho, ⟨%d0, H0⟩, ⟨%d1, H1⟩, ⟨%d2, H2⟩⟩
  iapply (kernel_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Scale1.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message rows at point `t`, zero past the array's end. -/
def rows1 (c : Dev nD) (t : Fin cfg1.N) : S8192x64.Idx → Elt F .f32 :=
  win1_0.fill (grid1.coords t) (fun _ => Scalar.ofBits .f32 0#32) (iblk1 V c 0 t)

/-- The rows' coefficients at point `t`, zero past the array's end. -/
def coef1 (c : Dev nD) (t : Fin cfg1.N) : S8192x1.Idx → Elt F .f32 :=
  win1_1.fill (grid1.coords t) (fun _ => Scalar.ofBits .f32 0#32) (iblk1 V c 1 t)

def dat1 (c : Dev nD) : Dat τ (Elt F) Unit ℕ (UR sig nD τ) ℕ cfg1 c where
  A w := V c (Pipeline.arrRef spec1 w)
  after w t := match w with
    | ⟨0, _⟩ => rows1 V c t
    | ⟨1, _⟩ => coef1 V c t
    | ⟨2, _⟩ => k1_pay1 (rows1 V c t) (coef1 V c t)
  Φ _ := Pipeline.ΦA spec1 c
  q _ := fullShare
  owed _ := 0

def rowIx1 (j : S8192x64.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k1_pay1_apply (x : Vec F S8192x64 .f32) (n : Vec F S8192x1 .f32) (j : S8192x64.Idx) :
    k1_pay1 x n j = FloatOps.mulf (x j) (n (rowIx1 j)) := by
  unfold k1_pay1 mulf broadcastTo shapeCast
  simp only [Shape.reshapeEquiv_self]
  refine congrArg _ (congrArg n (funext fun a => Fin.ext ?_))
  match a with
  | ⟨0, _⟩ => rfl
  | ⟨1, _⟩ => rfl

theorem hz1 : (![0, 0] : Fin 2 → Nat) = fun _ => 0 := funext fun a => by fin_cases a <;> rfl

set_option maxHeartbeats 1000000 in
theorem sound_kernel1 (c : Dev nD) (E : Set ℕ) (i : grid1.Coords) (arg1 : Memref sig .tc .vmem S8192x64 .f32) (harg1 : arg1.IsWhole) (arg2 : Memref sig .tc .vmem S8192x1 .f32) (harg2 : arg2.IsWhole) (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz1 inb_S8192x64_S8192x64_0_0 y⟩
  · rw [View.canon_unit_zero hz1, View.readAt_eq_ld, View.readAt_eq_ld, View.ld_unit_zero hz1, View.ld_unit_zero hz1]

theorem before1_0 (c : Dev nD) (t : Fin cfg1.N) (d) :
    (dat1 V c).before (0 : Fin 3) t d = win1_0.fill (grid1.coords t) d (iblk1 V c 0 t) := by
  unfold Dat.before; rw [if_pos (fetch1_0 t)]; rfl
theorem before1_1 (c : Dev nD) (t : Fin cfg1.N) (d) :
    (dat1 V c).before (1 : Fin 3) t d = win1_1.fill (grid1.coords t) d (iblk1 V c 1 t) := by
  unfold Dat.before; rw [if_pos (fetch1_1 t)]; rfl
theorem after1_0 (c : Dev nD) (t : Fin cfg1.N) : (dat1 V c).after (0 : Fin 3) t = rows1 V c t := by dsimp only [dat1]
theorem after1_1 (c : Dev nD) (t : Fin cfg1.N) : (dat1 V c).after (1 : Fin 3) t = coef1 V c t := by dsimp only [dat1]
theorem after1_2 (c : Dev nD) (t : Fin cfg1.N) : (dat1 V c).after (2 : Fin 3) t = k1_pay1 (rows1 V c t) (coef1 V c t) := by dsimp only [dat1]

theorem fill_congr1 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved1_0 (i : grid1.Coords) (j : (win1_2.xblock i).Idx) : win1_0.moved i (win1_2.xinj i j) = true :=
  (win1_0.moved_iff i _).mpr fun a => (j a).isLt

theorem moved1_1 (i : grid1.Coords) (j : (win1_2.xblock i).Idx) : win1_1.moved i (rowIx1 (win1_2.xinj i j)) = true :=
  (win1_1.moved_iff i _).mpr fun a => match a with
    | ⟨0, _⟩ => (j 0).isLt
    | ⟨1, _⟩ => Nat.one_pos

/-- On the rows inside the array the body's value does not depend on what lies past the array's end. -/
theorem cut_pay1 (c : Dev nD) (t : Fin cfg1.N) (d0 : S8192x64.Idx → Elt F .f32) (d1 : S8192x1.Idx → Elt F .f32) :
    win1_2.cut (grid1.coords t) (k1_pay1 (win1_0.fill (grid1.coords t) d0 (iblk1 V c 0 t)) (win1_1.fill (grid1.coords t) d1 (iblk1 V c 1 t)))
      = win1_2.cut (grid1.coords t) (k1_pay1 (rows1 V c t) (coef1 V c t)) := by
  funext j
  show k1_pay1 _ _ (win1_2.xinj _ j) = k1_pay1 _ _ (win1_2.xinj _ j)
  rw [k1_pay1_apply, k1_pay1_apply]
  exact congrArg₂ _ (fill_congr1 win1_0 _ _ _ _ (moved1_0 _ j)) (fill_congr1 win1_1 _ _ _ _ (moved1_1 _ j))

theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win1 0).cut (grid1.coords t) (rows1 V c t) = iblk1 V c 0 t from win1_0.cut_fill _ _ _]
    iexact H0
  isplitl [H1]
  · iexists d1
    rw [show (win1 1).cut (grid1.coords t) (coef1 V c t) = iblk1 V c 1 t from win1_1.cut_fill _ _ _]
    iexact H1
  · iexists k1_pay1 (win1_0.fill (grid1.coords t) d0 (iblk1 V c 0 t)) (win1_1.fill (grid1.coords t) d1 (iblk1 V c 1 t))
    rw [show (win1 2).fill (grid1.coords t) (k1_pay1 (win1_0.fill (grid1.coords t) d0 (iblk1 V c 0 t)) (win1_1.fill (grid1.coords t) d1 (iblk1 V c 1 t)))
          ((win1 2).cut (grid1.coords t) (k1_pay1 (rows1 V c t) (coef1 V c t)))
        = k1_pay1 (win1_0.fill (grid1.coords t) d0 (iblk1 V c 0 t)) (win1_1.fill (grid1.coords t) d1 (iblk1 V c 1 t)) from
      ((congrArg (win1_2.fill (grid1.coords t) _) (cut_pay1 V c t d0 d1)).symm).trans (win1_2.fill_cut _ _)]
    iexact H2

end Cert.Kernel.Hand

end
-- ==== Proof.Bits.Bias1.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- At point `t` the output block is the body's value of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem hz2 : (![0, 0] : Fin 2 → Nat) = fun _ => 0 := funext fun a => by fin_cases a <;> rfl

set_option maxHeartbeats 1000000 in
/-- The body writes its value of the two inputs into the output and leaves the inputs as they are. -/
theorem kernel_run2 (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz2 inb_S10000x64_S10000x64_0_0 y⟩
  · rw [View.canon_unit_zero hz2, View.readAt_eq_ld, View.readAt_eq_ld, View.ld_unit_zero hz2, View.ld_unit_zero hz2]

theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop((dat2 V c).Φ t.castSucc ∗ (dat2 V c).owesAt () t.castSucc
        ∗ owns (c : Thread nD τ) (st2_0 t) fullShare (iblk2 V c 0 t)
        ∗ owns (c : Thread nD τ) (st2_1 t) fullShare (iblk2 V c 1 t)
        ∗ owns (c : Thread nD τ) (st2_2 t) fullShare (k2_pay1 (iblk2 V c 0 t) (iblk2 V c 1 t)))
  simp only [before2_0, before2_1]
  iintro ⟨HΦ, Ho, ⟨%d0, H0⟩, ⟨%d1, H1⟩, ⟨%d2, H2⟩⟩
  iapply (kernel_run2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Dense2.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- At point `t` the output block is the body's value of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem hz3 : (![0, 0] : Fin 2 → Nat) = fun _ => 0 := funext fun a => by fin_cases a <;> rfl

set_option maxHeartbeats 1000000 in
/-- The body writes its value of the two inputs into the output and leaves the inputs as they are. -/
theorem kernel_run3 (c : Dev nD) (E : Set ℕ) (i : grid3.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz3 inb_S10000x64_S10000x64_0_0 y⟩
  · rw [View.canon_unit_zero hz3, View.readAt_eq_ld, View.readAt_eq_ld, View.ld_unit_zero hz3, View.ld_unit_zero hz3]

theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) fun _ =>
      iprop((dat3 V c).Φ t.castSucc ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (k3_pay1 (iblk3 V c 0 t) (iblk3 V c 1 t)))
  simp only [before3_0, before3_1]
  iintro ⟨HΦ, Ho, ⟨%d0, H0⟩, ⟨%d1, H1⟩, ⟨%d2, H2⟩⟩
  iapply (kernel_run3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Scale2.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The message rows at point `t`, zero past the array's end. -/
def rows4 (c : Dev nD) (t : Fin cfg4.N) : S8192x64.Idx → Elt F .f32 :=
  win4_0.fill (grid4.coords t) (fun _ => Scalar.ofBits .f32 0#32) (iblk4 V c 0 t)

/-- The rows' coefficients at point `t`, zero past the array's end. -/
def coef4 (c : Dev nD) (t : Fin cfg4.N) : S8192x1.Idx → Elt F .f32 :=
  win4_1.fill (grid4.coords t) (fun _ => Scalar.ofBits .f32 0#32) (iblk4 V c 1 t)

def dat4 (c : Dev nD) : Dat τ (Elt F) Unit ℕ (UR sig nD τ) ℕ cfg4 c where
  A w := V c (Pipeline.arrRef spec4 w)
  after w t := match w with
    | ⟨0, _⟩ => rows4 V c t
    | ⟨1, _⟩ => coef4 V c t
    | ⟨2, _⟩ => k4_pay1 (rows4 V c t) (coef4 V c t)
  Φ _ := Pipeline.ΦA spec4 c
  q _ := fullShare
  owed _ := 0

def rowIx4 (j : S8192x64.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k4_pay1_apply (x : Vec F S8192x64 .f32) (n : Vec F S8192x1 .f32) (j : S8192x64.Idx) :
    k4_pay1 x n j = FloatOps.mulf (x j) (n (rowIx4 j)) := by
  unfold k4_pay1 mulf broadcastTo shapeCast
  simp only [Shape.reshapeEquiv_self]
  refine congrArg _ (congrArg n (funext fun a => Fin.ext ?_))
  match a with
  | ⟨0, _⟩ => rfl
  | ⟨1, _⟩ => rfl

theorem hz4 : (![0, 0] : Fin 2 → Nat) = fun _ => 0 := funext fun a => by fin_cases a <;> rfl

set_option maxHeartbeats 1000000 in
theorem sound_kernel4 (c : Dev nD) (E : Set ℕ) (i : grid4.Coords) (arg1 : Memref sig .tc .vmem S8192x64 .f32) (harg1 : arg1.IsWhole) (arg2 : Memref sig .tc .vmem S8192x1 .f32) (harg2 : arg2.IsWhole) (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k4_pay1 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz4 inb_S8192x64_S8192x64_0_0 y⟩
  · rw [View.canon_unit_zero hz4, View.readAt_eq_ld, View.readAt_eq_ld, View.ld_unit_zero hz4, View.ld_unit_zero hz4]

theorem before4_0 (c : Dev nD) (t : Fin cfg4.N) (d) :
    (dat4 V c).before (0 : Fin 3) t d = win4_0.fill (grid4.coords t) d (iblk4 V c 0 t) := by
  unfold Dat.before; rw [if_pos (fetch4_0 t)]; rfl
theorem before4_1 (c : Dev nD) (t : Fin cfg4.N) (d) :
    (dat4 V c).before (1 : Fin 3) t d = win4_1.fill (grid4.coords t) d (iblk4 V c 1 t) := by
  unfold Dat.before; rw [if_pos (fetch4_1 t)]; rfl
theorem after4_0 (c : Dev nD) (t : Fin cfg4.N) : (dat4 V c).after (0 : Fin 3) t = rows4 V c t := by dsimp only [dat4]
theorem after4_1 (c : Dev nD) (t : Fin cfg4.N) : (dat4 V c).after (1 : Fin 3) t = coef4 V c t := by dsimp only [dat4]
theorem after4_2 (c : Dev nD) (t : Fin cfg4.N) : (dat4 V c).after (2 : Fin 3) t = k4_pay1 (rows4 V c t) (coef4 V c t) := by dsimp only [dat4]

theorem fill_congr4 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved4_0 (i : grid4.Coords) (j : (win4_2.xblock i).Idx) : win4_0.moved i (win4_2.xinj i j) = true :=
  (win4_0.moved_iff i _).mpr fun a => (j a).isLt

theorem moved4_1 (i : grid4.Coords) (j : (win4_2.xblock i).Idx) : win4_1.moved i (rowIx4 (win4_2.xinj i j)) = true :=
  (win4_1.moved_iff i _).mpr fun a => match a with
    | ⟨0, _⟩ => (j 0).isLt
    | ⟨1, _⟩ => Nat.one_pos

/-- On the rows inside the array the body's value does not depend on what lies past the array's end. -/
theorem cut_pay4 (c : Dev nD) (t : Fin cfg4.N) (d0 : S8192x64.Idx → Elt F .f32) (d1 : S8192x1.Idx → Elt F .f32) :
    win4_2.cut (grid4.coords t) (k4_pay1 (win4_0.fill (grid4.coords t) d0 (iblk4 V c 0 t)) (win4_1.fill (grid4.coords t) d1 (iblk4 V c 1 t)))
      = win4_2.cut (grid4.coords t) (k4_pay1 (rows4 V c t) (coef4 V c t)) := by
  funext j
  show k4_pay1 _ _ (win4_2.xinj _ j) = k4_pay1 _ _ (win4_2.xinj _ j)
  rw [k4_pay1_apply, k4_pay1_apply]
  exact congrArg₂ _ (fill_congr4 win4_0 _ _ _ _ (moved4_0 _ j)) (fill_congr4 win4_1 _ _ _ _ (moved4_1 _ j))

theorem body_obligation4 (c : Dev nD) : BodyObligationLoose (dat4 (F := F) V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_kernel4 (F := F) c Set.univ (grid4.coords t)
    (win4_0.stage (cfg4.slots t 0)) (hstage4_0 ((cfg4.slots t 0).cast nbuf4_0))
    (win4_1.stage (cfg4.slots t 1)) (hstage4_1 ((cfg4.slots t 1).cast nbuf4_1))
    (win4_2.stage (cfg4.slots t 2)) (hstage4_2 ((cfg4.slots t 2).cast nbuf4_2))
    (win4_0.fill (grid4.coords t) d0 (iblk4 V c 0 t)) (win4_1.fill (grid4.coords t) d1 (iblk4 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win4 0).cut (grid4.coords t) (rows4 V c t) = iblk4 V c 0 t from win4_0.cut_fill _ _ _]
    iexact H0
  isplitl [H1]
  · iexists d1
    rw [show (win4 1).cut (grid4.coords t) (coef4 V c t) = iblk4 V c 1 t from win4_1.cut_fill _ _ _]
    iexact H1
  · iexists k4_pay1 (win4_0.fill (grid4.coords t) d0 (iblk4 V c 0 t)) (win4_1.fill (grid4.coords t) d1 (iblk4 V c 1 t))
    rw [show (win4 2).fill (grid4.coords t) (k4_pay1 (win4_0.fill (grid4.coords t) d0 (iblk4 V c 0 t)) (win4_1.fill (grid4.coords t) d1 (iblk4 V c 1 t)))
          ((win4 2).cut (grid4.coords t) (k4_pay1 (rows4 V c t) (coef4 V c t)))
        = k4_pay1 (win4_0.fill (grid4.coords t) d0 (iblk4 V c 0 t)) (win4_1.fill (grid4.coords t) d1 (iblk4 V c 1 t)) from
      ((congrArg (win4_2.fill (grid4.coords t) _) (cut_pay4 V c t d0 d1)).symm).trans (win4_2.fill_cut _ _)]
    iexact H2

end Cert.Kernel.Hand

end
-- ==== Proof.Bits.Bias2.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- At point `t` the output block is the body's value of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 0 t) (iblk5 V c 1 t)
  Φ _ := Pipeline.ΦA spec5 c
  q _ := fullShare
  owed _ := 0

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d

theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem hz5 : (![0, 0] : Fin 2 → Nat) = fun _ => 0 := funext fun a => by fin_cases a <;> rfl

set_option maxHeartbeats 1000000 in
/-- The body writes its value of the two inputs into the output and leaves the inputs as they are. -/
theorem kernel_run5 (c : Dev nD) (E : Set ℕ) (i : grid5.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k5_pay1 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz5 inb_S10000x64_S10000x64_0_0 y⟩
  · rw [View.canon_unit_zero hz5, View.readAt_eq_ld, View.readAt_eq_ld, View.ld_unit_zero hz5, View.ld_unit_zero hz5]

theorem body_obligation5 (c : Dev nD) : BodyObligation (dat5 (F := F) V c) (defs₀ (F := F)) Variants.none () Set.univ := fun t => by
  rw [bigSep_W5, bigSep_W5]
  show iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d)))
    ⊢ wp frame (wpE (defs₀ (F := F)) Variants.none c none) Set.univ (bodyAt5 t) fun _ =>
      iprop((dat5 V c).Φ t.castSucc ∗ (dat5 V c).owesAt () t.castSucc
        ∗ owns (c : Thread nD τ) (st5_0 t) fullShare (iblk5 V c 0 t)
        ∗ owns (c : Thread nD τ) (st5_1 t) fullShare (iblk5 V c 1 t)
        ∗ owns (c : Thread nD τ) (st5_2 t) fullShare (k5_pay1 (iblk5 V c 0 t) (iblk5 V c 1 t)))
  simp only [before5_0, before5_1]
  iintro ⟨HΦ, Ho, ⟨%d0, H0⟩, ⟨%d1, H1⟩, ⟨%d2, H2⟩⟩
  iapply (kernel_run5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Dense3.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- At point `t` the output block is the body's value of the two input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d

theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem hz6 : (![0, 0] : Fin 2 → Nat) = fun _ => 0 := funext fun a => by fin_cases a <;> rfl

set_option maxHeartbeats 1000000 in
/-- The body writes its value of the two inputs into the output and leaves the inputs as they are. -/
theorem kernel_run6 (c : Dev nD) (E : Set ℕ) (i : grid6.Coords)
    (arg1 : Memref sig .tc .vmem S10000x64 .f32) (harg1 : arg1.IsWhole)
    (arg2 : Memref sig .tc .vmem S64x40 .f32) (harg2 : arg2.IsWhole)
    (arg3 : Memref sig .tc .vmem S10000x40 .f32) (harg3 : arg3.IsWhole)
    (x0 : Vec F S10000x64 .f32) (x1 : Vec F S64x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz6 inb_S10000x40_S10000x40_0_0 y⟩
  · rw [View.canon_unit_zero hz6, View.readAt_eq_ld, View.readAt_eq_ld, View.ld_unit_zero hz6, View.ld_unit_zero hz6]

theorem body_obligation6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) fun _ =>
      iprop((dat6 V c).Φ t.castSucc ∗ (dat6 V c).owesAt () t.castSucc
        ∗ owns (c : Thread nD τ) (st6_0 t) fullShare (iblk6 V c 0 t)
        ∗ owns (c : Thread nD τ) (st6_1 t) fullShare (iblk6 V c 1 t)
        ∗ owns (c : Thread nD τ) (st6_2 t) fullShare (k6_pay1 (iblk6 V c 0 t) (iblk6 V c 1 t)))
  simp only [before6_0, before6_1]
  iintro ⟨HΦ, Ho, ⟨%d0, H0⟩, ⟨%d1, H1⟩, ⟨%d2, H2⟩⟩
  iapply (kernel_run6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Scale3.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The message rows at point `t`, zero past the array's end. -/
def rows7 (c : Dev nD) (t : Fin cfg7.N) : S8192x40.Idx → Elt F .f32 :=
  win7_0.fill (grid7.coords t) (fun _ => Scalar.ofBits .f32 0#32) (iblk7 V c 0 t)

/-- The rows' coefficients at point `t`, zero past the array's end. -/
def coef7 (c : Dev nD) (t : Fin cfg7.N) : S8192x1.Idx → Elt F .f32 :=
  win7_1.fill (grid7.coords t) (fun _ => Scalar.ofBits .f32 0#32) (iblk7 V c 1 t)

def dat7 (c : Dev nD) : Dat τ (Elt F) Unit ℕ (UR sig nD τ) ℕ cfg7 c where
  A w := V c (Pipeline.arrRef spec7 w)
  after w t := match w with
    | ⟨0, _⟩ => rows7 V c t
    | ⟨1, _⟩ => coef7 V c t
    | ⟨2, _⟩ => k7_pay1 (rows7 V c t) (coef7 V c t)
  Φ _ := Pipeline.ΦA spec7 c
  q _ := fullShare
  owed _ := 0

def rowIx7 (j : S8192x40.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k7_pay1_apply (x : Vec F S8192x40 .f32) (n : Vec F S8192x1 .f32) (j : S8192x40.Idx) :
    k7_pay1 x n j = FloatOps.mulf (x j) (n (rowIx7 j)) := by
  unfold k7_pay1 mulf broadcastTo shapeCast
  simp only [Shape.reshapeEquiv_self]
  refine congrArg _ (congrArg n (funext fun a => Fin.ext ?_))
  match a with
  | ⟨0, _⟩ => rfl
  | ⟨1, _⟩ => rfl

theorem hz7 : (![0, 0] : Fin 2 → Nat) = fun _ => 0 := funext fun a => by fin_cases a <;> rfl

set_option maxHeartbeats 1000000 in
theorem sound_kernel7 (c : Dev nD) (E : Set ℕ) (i : grid7.Coords) (arg1 : Memref sig .tc .vmem S8192x40 .f32) (harg1 : arg1.IsWhole) (arg2 : Memref sig .tc .vmem S8192x1 .f32) (harg2 : arg2.IsWhole) (arg3 : Memref sig .tc .vmem S8192x40 .f32) (harg3 : arg3.IsWhole)
    (x0 : Vec F S8192x40 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k7_pay1 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz7 inb_S8192x40_S8192x40_0_0 y⟩
  · rw [View.canon_unit_zero hz7, View.readAt_eq_ld, View.readAt_eq_ld, View.ld_unit_zero hz7, View.ld_unit_zero hz7]

theorem before7_0 (c : Dev nD) (t : Fin cfg7.N) (d) :
    (dat7 V c).before (0 : Fin 3) t d = win7_0.fill (grid7.coords t) d (iblk7 V c 0 t) := by
  unfold Dat.before; rw [if_pos (fetch7_0 t)]; rfl
theorem before7_1 (c : Dev nD) (t : Fin cfg7.N) (d) :
    (dat7 V c).before (1 : Fin 3) t d = win7_1.fill (grid7.coords t) d (iblk7 V c 1 t) := by
  unfold Dat.before; rw [if_pos (fetch7_1 t)]; rfl
theorem after7_0 (c : Dev nD) (t : Fin cfg7.N) : (dat7 V c).after (0 : Fin 3) t = rows7 V c t := by dsimp only [dat7]
theorem after7_1 (c : Dev nD) (t : Fin cfg7.N) : (dat7 V c).after (1 : Fin 3) t = coef7 V c t := by dsimp only [dat7]
theorem after7_2 (c : Dev nD) (t : Fin cfg7.N) : (dat7 V c).after (2 : Fin 3) t = k7_pay1 (rows7 V c t) (coef7 V c t) := by dsimp only [dat7]

theorem fill_congr7 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved7_0 (i : grid7.Coords) (j : (win7_2.xblock i).Idx) : win7_0.moved i (win7_2.xinj i j) = true :=
  (win7_0.moved_iff i _).mpr fun a => (j a).isLt

theorem moved7_1 (i : grid7.Coords) (j : (win7_2.xblock i).Idx) : win7_1.moved i (rowIx7 (win7_2.xinj i j)) = true :=
  (win7_1.moved_iff i _).mpr fun a => match a with
    | ⟨0, _⟩ => (j 0).isLt
    | ⟨1, _⟩ => Nat.one_pos

/-- On the rows inside the array the body's value does not depend on what lies past the array's end. -/
theorem cut_pay7 (c : Dev nD) (t : Fin cfg7.N) (d0 : S8192x40.Idx → Elt F .f32) (d1 : S8192x1.Idx → Elt F .f32) :
    win7_2.cut (grid7.coords t) (k7_pay1 (win7_0.fill (grid7.coords t) d0 (iblk7 V c 0 t)) (win7_1.fill (grid7.coords t) d1 (iblk7 V c 1 t)))
      = win7_2.cut (grid7.coords t) (k7_pay1 (rows7 V c t) (coef7 V c t)) := by
  funext j
  show k7_pay1 _ _ (win7_2.xinj _ j) = k7_pay1 _ _ (win7_2.xinj _ j)
  rw [k7_pay1_apply, k7_pay1_apply]
  exact congrArg₂ _ (fill_congr7 win7_0 _ _ _ _ (moved7_0 _ j)) (fill_congr7 win7_1 _ _ _ _ (moved7_1 _ j))

theorem body_obligation7 (c : Dev nD) : BodyObligationLoose (dat7 (F := F) V c) (defs₀ (F := F)) Variants.none () Set.univ := fun t => by
  rw [bigSep_W7, bigSep_W7]
  simp only
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  rw [before7_0 V c t d0, before7_1 V c t d1]
  iapply (sound_kernel7 (F := F) c Set.univ (grid7.coords t)
    (win7_0.stage (cfg7.slots t 0)) (hstage7_0 ((cfg7.slots t 0).cast nbuf7_0))
    (win7_1.stage (cfg7.slots t 1)) (hstage7_1 ((cfg7.slots t 1).cast nbuf7_1))
    (win7_2.stage (cfg7.slots t 2)) (hstage7_2 ((cfg7.slots t 2).cast nbuf7_2))
    (win7_0.fill (grid7.coords t) d0 (iblk7 V c 0 t)) (win7_1.fill (grid7.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win7 0).cut (grid7.coords t) (rows7 V c t) = iblk7 V c 0 t from win7_0.cut_fill _ _ _]
    iexact H0
  isplitl [H1]
  · iexists d1
    rw [show (win7 1).cut (grid7.coords t) (coef7 V c t) = iblk7 V c 1 t from win7_1.cut_fill _ _ _]
    iexact H1
  · iexists k7_pay1 (win7_0.fill (grid7.coords t) d0 (iblk7 V c 0 t)) (win7_1.fill (grid7.coords t) d1 (iblk7 V c 1 t))
    rw [show (win7 2).fill (grid7.coords t) (k7_pay1 (win7_0.fill (grid7.coords t) d0 (iblk7 V c 0 t)) (win7_1.fill (grid7.coords t) d1 (iblk7 V c 1 t)))
          ((win7 2).cut (grid7.coords t) (k7_pay1 (rows7 V c t) (coef7 V c t)))
        = k7_pay1 (win7_0.fill (grid7.coords t) d0 (iblk7 V c 0 t)) (win7_1.fill (grid7.coords t) d1 (iblk7 V c 1 t)) from
      ((congrArg (win7_2.fill (grid7.coords t) _) (cut_pay7 V c t d0 d1)).symm).trans (win7_2.fill_cut _ _)]
    iexact H2

end Cert.Kernel.Hand

end
-- ==== Proof.Bits.Bias3.lean ====
import proofs.«430458_j3401614098765_3_alg».proof.Proof.Gen.Kernel.Launch
import proofs.«430458_j3401614098765_3_alg».proof.Proof.Gen.Kernel.Skeleton
import proofs.«430458_j3401614098765_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- At point `t` the output block is the body's value of the two input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay1 (iblk8 V c 0 t) (iblk8 V c 1 t)
  Φ _ := Pipeline.ΦA spec8 c
  q _ := fullShare
  owed _ := 0

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d

theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

theorem hz8 : (![0, 0] : Fin 2 → Nat) = fun _ => 0 := funext fun a => by fin_cases a <;> rfl

set_option maxHeartbeats 1000000 in
/-- The body writes its value of the two inputs into the output and leaves the inputs as they are. -/
theorem kernel_run8 (c : Dev nD) (E : Set ℕ) (i : grid8.Coords)
    (arg1 : Memref sig .tc .vmem S10000x40 .f32) (harg1 : arg1.IsWhole)
    (arg2 : Memref sig .tc .vmem S1x40 .f32) (harg2 : arg2.IsWhole)
    (arg3 : Memref sig .tc .vmem S10000x40 .f32) (harg3 : arg3.IsWhole)
    (x0 : Vec F S10000x40 .f32) (x1 : Vec F S1x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k8_pay1 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz8 inb_S10000x40_S10000x40_0_0 y⟩
  · rw [View.canon_unit_zero hz8, View.readAt_eq_ld, View.readAt_eq_ld, View.ld_unit_zero hz8, View.ld_unit_zero hz8]

theorem body_obligation8 (c : Dev nD) : BodyObligation (dat8 (F := F) V c) (defs₀ (F := F)) Variants.none () Set.univ := fun t => by
  rw [bigSep_W8, bigSep_W8]
  show iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) fun _ =>
      iprop((dat8 V c).Φ t.castSucc ∗ (dat8 V c).owesAt () t.castSucc
        ∗ owns (c : Thread nD τ) (st8_0 t) fullShare (iblk8 V c 0 t)
        ∗ owns (c : Thread nD τ) (st8_1 t) fullShare (iblk8 V c 1 t)
        ∗ owns (c : Thread nD τ) (st8_2 t) fullShare (k8_pay1 (iblk8 V c 0 t) (iblk8 V c 1 t)))
  simp only [before8_0, before8_1]
  iintro ⟨HΦ, Ho, ⟨%d0, H0⟩, ⟨%d1, H1⟩, ⟨%d2, H2⟩⟩
  iapply (kernel_run8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.Bits.Vals.lean ====
import proofs.«430458_j3401614098765_3_alg».proof.Proof.Bits.Dense1
import proofs.«430458_j3401614098765_3_alg».proof.Proof.Bits.Scale1
import proofs.«430458_j3401614098765_3_alg».proof.Proof.Bits.Bias1
import proofs.«430458_j3401614098765_3_alg».proof.Proof.Bits.Dense2
import proofs.«430458_j3401614098765_3_alg».proof.Proof.Bits.Scale2
import proofs.«430458_j3401614098765_3_alg».proof.Proof.Bits.Bias2
import proofs.«430458_j3401614098765_3_alg».proof.Proof.Bits.Dense3
import proofs.«430458_j3401614098765_3_alg».proof.Proof.Bits.Scale3
import proofs.«430458_j3401614098765_3_alg».proof.Proof.Bits.Bias3
import proofs.«430458_j3401614098765_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

/-- The memory after each region is the memory before it with the region's output array replaced by what its blocks wrote. -/
def W4 (c : Dev nD) : Valuation τ sig (Elt F) := Function.update (V3 m c) main_v30 ((dat0 (rd (V3 m)) c).arrAt 2 cfg0.N)
abbrev W5 (c : Dev nD) : Valuation τ sig (Elt F) := StableHlo.after hostOps1 (W4 m c)
abbrev W6 (c : Dev nD) : Valuation τ sig (Elt F) := StableHlo.after hostOps1_1 (W5 m c)
def W7 (c : Dev nD) : Valuation τ sig (Elt F) := Function.update (W6 m c) main_v33 ((dat1 (rd (W6 m)) c).arrAt 2 cfg1.N)
abbrev W8 (c : Dev nD) : Valuation τ sig (Elt F) := StableHlo.after hostOps2 (W7 m c)
def W9 (c : Dev nD) : Valuation τ sig (Elt F) := Function.update (W8 m c) main_v38 ((dat2 (rd (W8 m)) c).arrAt 2 cfg2.N)
def W10 (c : Dev nD) : Valuation τ sig (Elt F) := Function.update (W9 m c) main_v39 ((dat3 (rd (W9 m)) c).arrAt 2 cfg3.N)
abbrev W11 (c : Dev nD) : Valuation τ sig (Elt F) := StableHlo.after hostOps4 (W10 m c)
abbrev W12 (c : Dev nD) : Valuation τ sig (Elt F) := StableHlo.after hostOps4_1 (W11 m c)
def W13 (c : Dev nD) : Valuation τ sig (Elt F) := Function.update (W12 m c) main_v42 ((dat4 (rd (W12 m)) c).arrAt 2 cfg4.N)
abbrev W14 (c : Dev nD) : Valuation τ sig (Elt F) := StableHlo.after hostOps5 (W13 m c)
def W15 (c : Dev nD) : Valuation τ sig (Elt F) := Function.update (W14 m c) main_v47 ((dat5 (rd (W14 m)) c).arrAt 2 cfg5.N)
def W16 (c : Dev nD) : Valuation τ sig (Elt F) := Function.update (W15 m c) main_v48 ((dat6 (rd (W15 m)) c).arrAt 2 cfg6.N)
abbrev W17 (c : Dev nD) : Valuation τ sig (Elt F) := StableHlo.after hostOps7 (W16 m c)
abbrev W18 (c : Dev nD) : Valuation τ sig (Elt F) := StableHlo.after hostOps7_1 (W17 m c)
def W19 (c : Dev nD) : Valuation τ sig (Elt F) := Function.update (W18 m c) main_v51 ((dat7 (rd (W18 m)) c).arrAt 2 cfg7.N)
abbrev W20 (c : Dev nD) : Valuation τ sig (Elt F) := StableHlo.after hostOps8 (W19 m c)
def W21 (c : Dev nD) : Valuation τ sig (Elt F) := Function.update (W20 m c) main_v56 ((dat8 (rd (W20 m)) c).arrAt 2 cfg8.N)

def outs : Outs (F := F) := fun J r c =>
  match J with
  | 4 => W4 m c r
  | 7 => W7 m c r
  | 9 => W9 m c r
  | 10 => W10 m c r
  | 13 => W13 m c r
  | 15 => W15 m c r
  | 16 => W16 m c r
  | 19 => W19 m c r
  | _ => W21 m c r

theorem update_read {β : DevRef τ sig → Type} [DecidableEq (DevRef τ sig)] (f : (b : DevRef τ sig) → β b) (a : DevRef τ sig) (v : β a) :
    Function.update f a (Function.update f a v a) = Function.update f a v := by
  rw [Function.update_self]

theorem V4_eq (c : Dev nD) : V4 m (outs m) c = W4 m c := update_read _ _ _
theorem V5_eq (c : Dev nD) : V5 m (outs m) c = W5 m c := by show StableHlo.after hostOps1 (V4 m (outs m) c) = _; rw [V4_eq]
theorem V6_eq (c : Dev nD) : V6 m (outs m) c = W6 m c := by show StableHlo.after hostOps1_1 (V5 m (outs m) c) = _; rw [V5_eq]
theorem V7_eq (c : Dev nD) : V7 m (outs m) c = W7 m c := by
  show Function.update (V6 m (outs m) c) main_v33 (W7 m c main_v33) = _; rw [V6_eq]; exact update_read _ _ _
theorem V8_eq (c : Dev nD) : V8 m (outs m) c = W8 m c := by show StableHlo.after hostOps2 (V7 m (outs m) c) = _; rw [V7_eq]
theorem V9_eq (c : Dev nD) : V9 m (outs m) c = W9 m c := by
  show Function.update (V8 m (outs m) c) main_v38 (W9 m c main_v38) = _; rw [V8_eq]; exact update_read _ _ _
theorem V10_eq (c : Dev nD) : V10 m (outs m) c = W10 m c := by
  show Function.update (V9 m (outs m) c) main_v39 (W10 m c main_v39) = _; rw [V9_eq]; exact update_read _ _ _
theorem V11_eq (c : Dev nD) : V11 m (outs m) c = W11 m c := by show StableHlo.after hostOps4 (V10 m (outs m) c) = _; rw [V10_eq]
theorem V12_eq (c : Dev nD) : V12 m (outs m) c = W12 m c := by show StableHlo.after hostOps4_1 (V11 m (outs m) c) = _; rw [V11_eq]
theorem V13_eq (c : Dev nD) : V13 m (outs m) c = W13 m c := by
  show Function.update (V12 m (outs m) c) main_v42 (W13 m c main_v42) = _; rw [V12_eq]; exact update_read _ _ _
theorem V14_eq (c : Dev nD) : V14 m (outs m) c = W14 m c := by show StableHlo.after hostOps5 (V13 m (outs m) c) = _; rw [V13_eq]
theorem V15_eq (c : Dev nD) : V15 m (outs m) c = W15 m c := by
  show Function.update (V14 m (outs m) c) main_v47 (W15 m c main_v47) = _; rw [V14_eq]; exact update_read _ _ _
theorem V16_eq (c : Dev nD) : V16 m (outs m) c = W16 m c := by
  show Function.update (V15 m (outs m) c) main_v48 (W16 m c main_v48) = _; rw [V15_eq]; exact update_read _ _ _
theorem V17_eq (c : Dev nD) : V17 m (outs m) c = W17 m c := by show StableHlo.after hostOps7 (V16 m (outs m) c) = _; rw [V16_eq]
theorem V18_eq (c : Dev nD) : V18 m (outs m) c = W18 m c := by show StableHlo.after hostOps7_1 (V17 m (outs m) c) = _; rw [V17_eq]
theorem V19_eq (c : Dev nD) : V19 m (outs m) c = W19 m c := by
  show Function.update (V18 m (outs m) c) main_v51 (W19 m c main_v51) = _; rw [V18_eq]; exact update_read _ _ _
theorem V20_eq (c : Dev nD) : V20 m (outs m) c = W20 m c := by show StableHlo.after hostOps8 (V19 m (outs m) c) = _; rw [V19_eq]
theorem V21_eq (c : Dev nD) : V21 m (outs m) c = W21 m c := by
  show Function.update (V20 m (outs m) c) main_v56 (W21 m c main_v56) = _; rw [V20_eq]; exact update_read _ _ _

theorem W4_of (c : Dev nD) (r : Ref sig .tc) (h : r ≠ main_v30) : W4 m c r = V3 m c r := by
  unfold W4; exact Function.update_of_ne (StableHlo.devRef_ne_of_ne h) _ _
theorem W4_out (c : Dev nD) : W4 m c main_v30 = (dat0 (rd (V3 m)) c).arrAt 2 cfg0.N := by
  unfold W4; exact Function.update_self _ _ _
theorem W7_of (c : Dev nD) (r : Ref sig .tc) (h : r ≠ main_v33) : W7 m c r = W6 m c r := by
  unfold W7; exact Function.update_of_ne (StableHlo.devRef_ne_of_ne h) _ _
theorem W7_out (c : Dev nD) : W7 m c main_v33 = (dat1 (rd (W6 m)) c).arrAt 2 cfg1.N := by
  unfold W7; exact Function.update_self _ _ _
theorem W9_of (c : Dev nD) (r : Ref sig .tc) (h : r ≠ main_v38) : W9 m c r = W8 m c r := by
  unfold W9; exact Function.update_of_ne (StableHlo.devRef_ne_of_ne h) _ _
theorem W9_out (c : Dev nD) : W9 m c main_v38 = (dat2 (rd (W8 m)) c).arrAt 2 cfg2.N := by
  unfold W9; exact Function.update_self _ _ _
theorem W10_of (c : Dev nD) (r : Ref sig .tc) (h : r ≠ main_v39) : W10 m c r = W9 m c r := by
  unfold W10; exact Function.update_of_ne (StableHlo.devRef_ne_of_ne h) _ _
theorem W10_out (c : Dev nD) : W10 m c main_v39 = (dat3 (rd (W9 m)) c).arrAt 2 cfg3.N := by
  unfold W10; exact Function.update_self _ _ _
theorem W13_of (c : Dev nD) (r : Ref sig .tc) (h : r ≠ main_v42) : W13 m c r = W12 m c r := by
  unfold W13; exact Function.update_of_ne (StableHlo.devRef_ne_of_ne h) _ _
theorem W13_out (c : Dev nD) : W13 m c main_v42 = (dat4 (rd (W12 m)) c).arrAt 2 cfg4.N := by
  unfold W13; exact Function.update_self _ _ _
theorem W15_of (c : Dev nD) (r : Ref sig .tc) (h : r ≠ main_v47) : W15 m c r = W14 m c r := by
  unfold W15; exact Function.update_of_ne (StableHlo.devRef_ne_of_ne h) _ _
theorem W15_out (c : Dev nD) : W15 m c main_v47 = (dat5 (rd (W14 m)) c).arrAt 2 cfg5.N := by
  unfold W15; exact Function.update_self _ _ _
theorem W16_of (c : Dev nD) (r : Ref sig .tc) (h : r ≠ main_v48) : W16 m c r = W15 m c r := by
  unfold W16; exact Function.update_of_ne (StableHlo.devRef_ne_of_ne h) _ _
theorem W16_out (c : Dev nD) : W16 m c main_v48 = (dat6 (rd (W15 m)) c).arrAt 2 cfg6.N := by
  unfold W16; exact Function.update_self _ _ _
theorem W19_of (c : Dev nD) (r : Ref sig .tc) (h : r ≠ main_v51) : W19 m c r = W18 m c r := by
  unfold W19; exact Function.update_of_ne (StableHlo.devRef_ne_of_ne h) _ _
theorem W19_out (c : Dev nD) : W19 m c main_v51 = (dat7 (rd (W18 m)) c).arrAt 2 cfg7.N := by
  unfold W19; exact Function.update_self _ _ _
theorem W21_of (c : Dev nD) (r : Ref sig .tc) (h : r ≠ main_v56) : W21 m c r = W20 m c r := by
  unfold W21; exact Function.update_of_ne (StableHlo.devRef_ne_of_ne h) _ _
theorem W21_out (c : Dev nD) : W21 m c main_v56 = (dat8 (rd (W20 m)) c).arrAt 2 cfg8.N := by
  unfold W21; exact Function.update_self _ _ _

abbrev adm : (p : Fin 9) → (pcfgs (F := F) p).Adm := fun p => (cfgs p).toPCfg_adm

def pdats : (p : Fin 9) → (c : Dev nD) → Dat τ (Elt F) Unit ℕ (UR sig nD τ) ℕ (cfgs p) c
  | ⟨0, _⟩ => fun c => dat0 (rd (V3 m)) c
  | ⟨1, _⟩ => fun c => dat1 (rd (W6 m)) c
  | ⟨2, _⟩ => fun c => dat2 (rd (W8 m)) c
  | ⟨3, _⟩ => fun c => dat3 (rd (W9 m)) c
  | ⟨4, _⟩ => fun c => dat4 (rd (W12 m)) c
  | ⟨5, _⟩ => fun c => dat5 (rd (W14 m)) c
  | ⟨6, _⟩ => fun c => dat6 (rd (W15 m)) c
  | ⟨7, _⟩ => fun c => dat7 (rd (W18 m)) c
  | ⟨8, _⟩ => fun c => dat8 (rd (W20 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.Kernel.Hand

end
-- ==== Proof.Bits.Regs.lean ====
import proofs.«430458_j3401614098765_3_alg».proof.Proof.Bits.Vals
import Idealize.ShloMosaic.Lib.Pipeline.Frame
import Idealize.ShloMosaic.Lib.Pipeline.Regions
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

section
variable (p : Fin 9) (launch : Pipeline.LaunchFacts (nD := nD) (τ := τ) cfgs p) (o : Fin (cfgs p).W)
  (Vin Vout : Dev nD → Valuation τ sig (Elt F))
  (hbody : ∀ c, BodyObligationLoose (pdats m p c) (defs₀ (F := F)) 𝒱₀ () Set.univ)
  (hA : ∀ c w, (pdats m p c).A w = rd Vin c (Pipeline.arrRef (cfgs p).spec w))
  (hin : ∀ w, w ≠ o → ((cfgs p).win w).isOut = false)
  (hof : ∀ c (r : Ref sig .tc), r ≠ Pipeline.arrRef (cfgs p).spec o → Vout c r = Vin c r)
  (hout : ∀ c, Vout c (Pipeline.arrRef (cfgs p).spec o) = (pdats m p c).arrAt o (cfgs p).N)
  (hΦ : ∀ c t, (pdats m p c).Φ t = Pipeline.ΦA (cfgs p).spec c)
  (hq : ∀ c w, (pdats m p c).q w = fullShare)
  (howed : ∀ c t, (pdats m p c).owed t = 0)
  (hrec : ∀ c t, (pdats m p c).recorded t = Set.univ)

include launch hA hin hof hout in
/-- After region `p` its output array holds what its blocks wrote and every other array is as before. -/
theorem exit_arr (c : Dev nD) (w : Fin (cfgs p).W) :
    (pdats m p c).arrAt w (cfgs p).N = rd Vout c (Pipeline.arrRef (cfgs p).spec w) := by
  by_cases h : w = o
  · subst h; exact (hout c).symm
  · exact (((pdats m p c).arrAt_in w (hin w h) _).trans (hA c w)).trans
      (hof c _ fun e => h (launch.win.arr_inj e)).symm

set_option backward.isDefEq.respectTransparency.types false in
/-- Region `p` takes the memory `Vin` to the memory `Vout`. -/
def regOf : Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    rw [Pipeline.ownSems0_none]
    have hsplit := Pipeline.arrays_of_unscopedBufs (p := p) (pcfgs (F := F)) adm (pdats m) launch.win launch.arr_whole c
      ((pdats m p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd Vin c) (rd Vout c) ((pdats m p c).arrAt · (cfgs p).N) (exit_arr m p launch o Vin Vout hA hin hof hout c)
      fun b hb => hof c b fun h => hb (h ▸ Finset.mem_image.mpr ⟨o, Finset.mem_univ _, rfl⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end

def reg0 := regOf m 0 launch0 2 (V3 m) (W4 m) (fun c => (body_obligation0 (rd (V3 m)) c).loose) (fun _ _ => rfl) (by decide) (W4_of m) (W4_out m) (fun _ _ => rfl) (fun _ _ => rfl) (fun _ _ => rfl) (fun _ _ => rfl)
def reg1 := regOf m 1 launch1 2 (W6 m) (W7 m) (body_obligation1 (rd (W6 m))) (fun _ _ => rfl) (by decide) (W7_of m) (W7_out m) (fun _ _ => rfl) (fun _ _ => rfl) (fun _ _ => rfl) (fun _ _ => rfl)
def reg2 := regOf m 2 launch2 2 (W8 m) (W9 m) (fun c => (body_obligation2 (rd (W8 m)) c).loose) (fun _ _ => rfl) (by decide) (W9_of m) (W9_out m) (fun _ _ => rfl) (fun _ _ => rfl) (fun _ _ => rfl) (fun _ _ => rfl)
def reg3 := regOf m 3 launch3 2 (W9 m) (W10 m) (fun c => (body_obligation3 (rd (W9 m)) c).loose) (fun _ _ => rfl) (by decide) (W10_of m) (W10_out m) (fun _ _ => rfl) (fun _ _ => rfl) (fun _ _ => rfl) (fun _ _ => rfl)
def reg4 := regOf m 4 launch4 2 (W12 m) (W13 m) (body_obligation4 (rd (W12 m))) (fun _ _ => rfl) (by decide) (W13_of m) (W13_out m) (fun _ _ => rfl) (fun _ _ => rfl) (fun _ _ => rfl) (fun _ _ => rfl)
def reg5 := regOf m 5 launch5 2 (W14 m) (W15 m) (fun c => (body_obligation5 (rd (W14 m)) c).loose) (fun _ _ => rfl) (by decide) (W15_of m) (W15_out m) (fun _ _ => rfl) (fun _ _ => rfl) (fun _ _ => rfl) (fun _ _ => rfl)
def reg6 := regOf m 6 launch6 2 (W15 m) (W16 m) (fun c => (body_obligation6 (rd (W15 m)) c).loose) (fun _ _ => rfl) (by decide) (W16_of m) (W16_out m) (fun _ _ => rfl) (fun _ _ => rfl) (fun _ _ => rfl) (fun _ _ => rfl)
def reg7 := regOf m 7 launch7 2 (W18 m) (W19 m) (body_obligation7 (rd (W18 m))) (fun _ _ => rfl) (by decide) (W19_of m) (W19_out m) (fun _ _ => rfl) (fun _ _ => rfl) (fun _ _ => rfl) (fun _ _ => rfl)
def reg8 := regOf m 8 launch8 2 (W20 m) (W21 m) (fun c => (body_obligation8 (rd (W20 m)) c).loose) (fun _ _ => rfl) (by decide) (W21_of m) (W21_out m) (fun _ _ => rfl) (fun _ _ => rfl) (fun _ _ => rfl) (fun _ _ => rfl)

variable (ρ : Dev nD → PrngReg)

abbrev u₀ : UR sig nD τ := initOf (Pipeline.cells cfgs cellOf_inj) (Pipeline.launchToks cfgs cellOf_inj)

theorem launch_tokens : (ownU (u₀) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) ⊢ R (F := F) c := by
  iintro ⟨-, HO, -, Hp, -⟩
  isplitl [Hp]; · iexists _; iexact Hp
  iexists ∅; iexact HO

theorem launch_rests :
    (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ fun c : Dev nD => R (F := F) c : sProp 𝕄) :=
  bigSep_mono fun c _ => launch_rest (F := F) ρ c

end Cert.Kernel.Hand

end
-- ==== Proof.Bits.Run.lean ====
import proofs.«430458_j3401614098765_3_alg».proof.Proof.Bits.Regs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs through its nine regions to the end and leaves its arguments unchanged. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond (F := F) m (emb₁ : Emb (UR sig nD τ) 𝕄) () 𝒱₀ L lv (fun _ _ => rfl) ρ (outs m) (pdats m)
    (0 : Dev nD → CellTallies nD τ sig Unit) (fun _ => (BI.emp : sProp 𝕄)) u₀ (launch_tokens (F := F))
    (fun _ c => R (F := F) c)
    (by iintro ⟨H, -⟩; imodintro; iapply (launch_rests (F := F) ρ); iexact H)
    (fun c => by iintro ⟨-, HO⟩; iexact HO)
    (reg0 m) (fun c => .rfl) (fun c => by rw [V4_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V9_eq]; exact .rfl) (fun c => by rw [V10_eq]; exact .rfl)
    (reg4 m) (fun c => by rw [V12_eq]; exact .rfl) (fun c => by rw [V13_eq]; exact .rfl)
    (reg5 m) (fun c => by rw [V14_eq]; exact .rfl) (fun c => by rw [V15_eq]; exact .rfl)
    (reg6 m) (fun c => by rw [V15_eq]; exact .rfl) (fun c => by rw [V16_eq]; exact .rfl)
    (reg7 m) (fun c => by rw [V18_eq]; exact .rfl) (fun c => by rw [V19_eq]; exact .rfl)
    (reg8 m) (fun c => by rw [V20_eq]; exact .rfl) (fun c => by rw [V21_eq]; exact .rfl)

end Cert.Kernel.Hand

end
-- ==== Proof.Ideal.Dense1.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At point `t` the output block is the body's value of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem hz0 : (![0, 0] : Fin 2 → Nat) = fun _ => 0 := funext fun a => by fin_cases a <;> rfl

set_option maxHeartbeats 1000000 in
/-- The body writes its value of the two inputs into the output and leaves the inputs as they are. -/
theorem kernel_run0 (c : Dev nD) (E : Set ℕ) (i : grid0.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz0 inb_S10000x64_S10000x64_0_0 y⟩
  · rw [View.canon_unit_zero hz0, View.readAt_eq_ld, View.readAt_eq_ld, View.ld_unit_zero hz0, View.ld_unit_zero hz0]

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) fun _ =>
      iprop((dat0 V c).Φ t.castSucc ∗ (dat0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare (k0_pay1 (iblk0 V c 0 t) (iblk0 V c 1 t)))
  simp only [before0_0, before0_1]
  iintro ⟨HΦ, Ho, ⟨%d0, H0⟩, ⟨%d1, H1⟩, ⟨%d2, H2⟩⟩
  iapply (kernel_run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Scale1.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message rows at point `t`, zero past the array's end. -/
def rows1 (c : Dev nD) (t : Fin cfg1.N) : S8192x64.Idx → Elt F .f32 :=
  win1_0.fill (grid1.coords t) (fun _ => Scalar.ofBits .f32 0#32) (iblk1 V c 0 t)

/-- The rows' coefficients at point `t`, zero past the array's end. -/
def coef1 (c : Dev nD) (t : Fin cfg1.N) : S8192x1.Idx → Elt F .f32 :=
  win1_1.fill (grid1.coords t) (fun _ => Scalar.ofBits .f32 0#32) (iblk1 V c 1 t)

def dat1 (c : Dev nD) : Dat τ (Elt F) Unit ℕ (UR sig nD τ) ℕ cfg1 c where
  A w := V c (Pipeline.arrRef spec1 w)
  after w t := match w with
    | ⟨0, _⟩ => rows1 V c t
    | ⟨1, _⟩ => coef1 V c t
    | ⟨2, _⟩ => k1_pay1 (rows1 V c t) (coef1 V c t)
  Φ _ := Pipeline.ΦA spec1 c
  q _ := fullShare
  owed _ := 0

def rowIx1 (j : S8192x64.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k1_pay1_apply (x : Vec F S8192x64 .f32) (n : Vec F S8192x1 .f32) (j : S8192x64.Idx) :
    k1_pay1 x n j = FloatOps.mulf (x j) (n (rowIx1 j)) := by
  unfold k1_pay1 mulf broadcastTo shapeCast
  simp only [Shape.reshapeEquiv_self]
  refine congrArg _ (congrArg n (funext fun a => Fin.ext ?_))
  match a with
  | ⟨0, _⟩ => rfl
  | ⟨1, _⟩ => rfl

theorem hz1 : (![0, 0] : Fin 2 → Nat) = fun _ => 0 := funext fun a => by fin_cases a <;> rfl

set_option maxHeartbeats 1000000 in
theorem sound_kernel1 (c : Dev nD) (E : Set ℕ) (i : grid1.Coords) (arg1 : Memref sig .tc .vmem S8192x64 .f32) (harg1 : arg1.IsWhole) (arg2 : Memref sig .tc .vmem S8192x1 .f32) (harg2 : arg2.IsWhole) (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz1 inb_S8192x64_S8192x64_0_0 y⟩
  · rw [View.canon_unit_zero hz1, View.readAt_eq_ld, View.readAt_eq_ld, View.ld_unit_zero hz1, View.ld_unit_zero hz1]

theorem before1_0 (c : Dev nD) (t : Fin cfg1.N) (d) :
    (dat1 V c).before (0 : Fin 3) t d = win1_0.fill (grid1.coords t) d (iblk1 V c 0 t) := by
  unfold Dat.before; rw [if_pos (fetch1_0 t)]; rfl
theorem before1_1 (c : Dev nD) (t : Fin cfg1.N) (d) :
    (dat1 V c).before (1 : Fin 3) t d = win1_1.fill (grid1.coords t) d (iblk1 V c 1 t) := by
  unfold Dat.before; rw [if_pos (fetch1_1 t)]; rfl
theorem after1_0 (c : Dev nD) (t : Fin cfg1.N) : (dat1 V c).after (0 : Fin 3) t = rows1 V c t := by dsimp only [dat1]
theorem after1_1 (c : Dev nD) (t : Fin cfg1.N) : (dat1 V c).after (1 : Fin 3) t = coef1 V c t := by dsimp only [dat1]
theorem after1_2 (c : Dev nD) (t : Fin cfg1.N) : (dat1 V c).after (2 : Fin 3) t = k1_pay1 (rows1 V c t) (coef1 V c t) := by dsimp only [dat1]

theorem fill_congr1 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved1_0 (i : grid1.Coords) (j : (win1_2.xblock i).Idx) : win1_0.moved i (win1_2.xinj i j) = true :=
  (win1_0.moved_iff i _).mpr fun a => (j a).isLt

theorem moved1_1 (i : grid1.Coords) (j : (win1_2.xblock i).Idx) : win1_1.moved i (rowIx1 (win1_2.xinj i j)) = true :=
  (win1_1.moved_iff i _).mpr fun a => match a with
    | ⟨0, _⟩ => (j 0).isLt
    | ⟨1, _⟩ => Nat.one_pos

/-- On the rows inside the array the body's value does not depend on what lies past the array's end. -/
theorem cut_pay1 (c : Dev nD) (t : Fin cfg1.N) (d0 : S8192x64.Idx → Elt F .f32) (d1 : S8192x1.Idx → Elt F .f32) :
    win1_2.cut (grid1.coords t) (k1_pay1 (win1_0.fill (grid1.coords t) d0 (iblk1 V c 0 t)) (win1_1.fill (grid1.coords t) d1 (iblk1 V c 1 t)))
      = win1_2.cut (grid1.coords t) (k1_pay1 (rows1 V c t) (coef1 V c t)) := by
  funext j
  show k1_pay1 _ _ (win1_2.xinj _ j) = k1_pay1 _ _ (win1_2.xinj _ j)
  rw [k1_pay1_apply, k1_pay1_apply]
  exact congrArg₂ _ (fill_congr1 win1_0 _ _ _ _ (moved1_0 _ j)) (fill_congr1 win1_1 _ _ _ _ (moved1_1 _ j))

theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_kernel1 (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (iblk1 V c 0 t)) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win1 0).cut (grid1.coords t) (rows1 V c t) = iblk1 V c 0 t from win1_0.cut_fill _ _ _]
    iexact H0
  isplitl [H1]
  · iexists d1
    rw [show (win1 1).cut (grid1.coords t) (coef1 V c t) = iblk1 V c 1 t from win1_1.cut_fill _ _ _]
    iexact H1
  · iexists k1_pay1 (win1_0.fill (grid1.coords t) d0 (iblk1 V c 0 t)) (win1_1.fill (grid1.coords t) d1 (iblk1 V c 1 t))
    rw [show (win1 2).fill (grid1.coords t) (k1_pay1 (win1_0.fill (grid1.coords t) d0 (iblk1 V c 0 t)) (win1_1.fill (grid1.coords t) d1 (iblk1 V c 1 t)))
          ((win1 2).cut (grid1.coords t) (k1_pay1 (rows1 V c t) (coef1 V c t)))
        = k1_pay1 (win1_0.fill (grid1.coords t) d0 (iblk1 V c 0 t)) (win1_1.fill (grid1.coords t) d1 (iblk1 V c 1 t)) from
      ((congrArg (win1_2.fill (grid1.coords t) _) (cut_pay1 V c t d0 d1)).symm).trans (win1_2.fill_cut _ _)]
    iexact H2

end Cert.KernelIdeal.Hand

end
-- ==== Proof.Ideal.Bias1.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- At point `t` the output block is the body's value of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay1 (iblk2 V c 0 t) (iblk2 V c 1 t)
  Φ _ := Pipeline.ΦA spec2 c
  q _ := fullShare
  owed _ := 0

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d

theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem hz2 : (![0, 0] : Fin 2 → Nat) = fun _ => 0 := funext fun a => by fin_cases a <;> rfl

set_option maxHeartbeats 1000000 in
/-- The body writes its value of the two inputs into the output and leaves the inputs as they are. -/
theorem kernel_run2 (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz2 inb_S10000x64_S10000x64_0_0 y⟩
  · rw [View.canon_unit_zero hz2, View.readAt_eq_ld, View.readAt_eq_ld, View.ld_unit_zero hz2, View.ld_unit_zero hz2]

theorem body_obligation2 (c : Dev nD) : BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) fun _ =>
      iprop((dat2 V c).Φ t.castSucc ∗ (dat2 V c).owesAt () t.castSucc
        ∗ owns (c : Thread nD τ) (st2_0 t) fullShare (iblk2 V c 0 t)
        ∗ owns (c : Thread nD τ) (st2_1 t) fullShare (iblk2 V c 1 t)
        ∗ owns (c : Thread nD τ) (st2_2 t) fullShare (k2_pay1 (iblk2 V c 0 t) (iblk2 V c 1 t)))
  simp only [before2_0, before2_1]
  iintro ⟨HΦ, Ho, ⟨%d0, H0⟩, ⟨%d1, H1⟩, ⟨%d2, H2⟩⟩
  iapply (kernel_run2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Dense2.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- At point `t` the output block is the body's value of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem hz3 : (![0, 0] : Fin 2 → Nat) = fun _ => 0 := funext fun a => by fin_cases a <;> rfl

set_option maxHeartbeats 1000000 in
/-- The body writes its value of the two inputs into the output and leaves the inputs as they are. -/
theorem kernel_run3 (c : Dev nD) (E : Set ℕ) (i : grid3.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz3 inb_S10000x64_S10000x64_0_0 y⟩
  · rw [View.canon_unit_zero hz3, View.readAt_eq_ld, View.readAt_eq_ld, View.ld_unit_zero hz3, View.ld_unit_zero hz3]

theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) fun _ =>
      iprop((dat3 V c).Φ t.castSucc ∗ (dat3 V c).owesAt () t.castSucc
        ∗ owns (c : Thread nD τ) (st3_0 t) fullShare (iblk3 V c 0 t)
        ∗ owns (c : Thread nD τ) (st3_1 t) fullShare (iblk3 V c 1 t)
        ∗ owns (c : Thread nD τ) (st3_2 t) fullShare (k3_pay1 (iblk3 V c 0 t) (iblk3 V c 1 t)))
  simp only [before3_0, before3_1]
  iintro ⟨HΦ, Ho, ⟨%d0, H0⟩, ⟨%d1, H1⟩, ⟨%d2, H2⟩⟩
  iapply (kernel_run3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Scale2.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The message rows at point `t`, zero past the array's end. -/
def rows4 (c : Dev nD) (t : Fin cfg4.N) : S8192x64.Idx → Elt F .f32 :=
  win4_0.fill (grid4.coords t) (fun _ => Scalar.ofBits .f32 0#32) (iblk4 V c 0 t)

/-- The rows' coefficients at point `t`, zero past the array's end. -/
def coef4 (c : Dev nD) (t : Fin cfg4.N) : S8192x1.Idx → Elt F .f32 :=
  win4_1.fill (grid4.coords t) (fun _ => Scalar.ofBits .f32 0#32) (iblk4 V c 1 t)

def dat4 (c : Dev nD) : Dat τ (Elt F) Unit ℕ (UR sig nD τ) ℕ cfg4 c where
  A w := V c (Pipeline.arrRef spec4 w)
  after w t := match w with
    | ⟨0, _⟩ => rows4 V c t
    | ⟨1, _⟩ => coef4 V c t
    | ⟨2, _⟩ => k4_pay1 (rows4 V c t) (coef4 V c t)
  Φ _ := Pipeline.ΦA spec4 c
  q _ := fullShare
  owed _ := 0

def rowIx4 (j : S8192x64.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k4_pay1_apply (x : Vec F S8192x64 .f32) (n : Vec F S8192x1 .f32) (j : S8192x64.Idx) :
    k4_pay1 x n j = FloatOps.mulf (x j) (n (rowIx4 j)) := by
  unfold k4_pay1 mulf broadcastTo shapeCast
  simp only [Shape.reshapeEquiv_self]
  refine congrArg _ (congrArg n (funext fun a => Fin.ext ?_))
  match a with
  | ⟨0, _⟩ => rfl
  | ⟨1, _⟩ => rfl

theorem hz4 : (![0, 0] : Fin 2 → Nat) = fun _ => 0 := funext fun a => by fin_cases a <;> rfl

set_option maxHeartbeats 1000000 in
theorem sound_kernel4 (c : Dev nD) (E : Set ℕ) (i : grid4.Coords) (arg1 : Memref sig .tc .vmem S8192x64 .f32) (harg1 : arg1.IsWhole) (arg2 : Memref sig .tc .vmem S8192x1 .f32) (harg2 : arg2.IsWhole) (arg3 : Memref sig .tc .vmem S8192x64 .f32) (harg3 : arg3.IsWhole)
    (x0 : Vec F S8192x64 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k4_pay1 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz4 inb_S8192x64_S8192x64_0_0 y⟩
  · rw [View.canon_unit_zero hz4, View.readAt_eq_ld, View.readAt_eq_ld, View.ld_unit_zero hz4, View.ld_unit_zero hz4]

theorem before4_0 (c : Dev nD) (t : Fin cfg4.N) (d) :
    (dat4 V c).before (0 : Fin 3) t d = win4_0.fill (grid4.coords t) d (iblk4 V c 0 t) := by
  unfold Dat.before; rw [if_pos (fetch4_0 t)]; rfl
theorem before4_1 (c : Dev nD) (t : Fin cfg4.N) (d) :
    (dat4 V c).before (1 : Fin 3) t d = win4_1.fill (grid4.coords t) d (iblk4 V c 1 t) := by
  unfold Dat.before; rw [if_pos (fetch4_1 t)]; rfl
theorem after4_0 (c : Dev nD) (t : Fin cfg4.N) : (dat4 V c).after (0 : Fin 3) t = rows4 V c t := by dsimp only [dat4]
theorem after4_1 (c : Dev nD) (t : Fin cfg4.N) : (dat4 V c).after (1 : Fin 3) t = coef4 V c t := by dsimp only [dat4]
theorem after4_2 (c : Dev nD) (t : Fin cfg4.N) : (dat4 V c).after (2 : Fin 3) t = k4_pay1 (rows4 V c t) (coef4 V c t) := by dsimp only [dat4]

theorem fill_congr4 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved4_0 (i : grid4.Coords) (j : (win4_2.xblock i).Idx) : win4_0.moved i (win4_2.xinj i j) = true :=
  (win4_0.moved_iff i _).mpr fun a => (j a).isLt

theorem moved4_1 (i : grid4.Coords) (j : (win4_2.xblock i).Idx) : win4_1.moved i (rowIx4 (win4_2.xinj i j)) = true :=
  (win4_1.moved_iff i _).mpr fun a => match a with
    | ⟨0, _⟩ => (j 0).isLt
    | ⟨1, _⟩ => Nat.one_pos

/-- On the rows inside the array the body's value does not depend on what lies past the array's end. -/
theorem cut_pay4 (c : Dev nD) (t : Fin cfg4.N) (d0 : S8192x64.Idx → Elt F .f32) (d1 : S8192x1.Idx → Elt F .f32) :
    win4_2.cut (grid4.coords t) (k4_pay1 (win4_0.fill (grid4.coords t) d0 (iblk4 V c 0 t)) (win4_1.fill (grid4.coords t) d1 (iblk4 V c 1 t)))
      = win4_2.cut (grid4.coords t) (k4_pay1 (rows4 V c t) (coef4 V c t)) := by
  funext j
  show k4_pay1 _ _ (win4_2.xinj _ j) = k4_pay1 _ _ (win4_2.xinj _ j)
  rw [k4_pay1_apply, k4_pay1_apply]
  exact congrArg₂ _ (fill_congr4 win4_0 _ _ _ _ (moved4_0 _ j)) (fill_congr4 win4_1 _ _ _ _ (moved4_1 _ j))

theorem body_obligation4 (c : Dev nD) : BodyObligationLoose (dat4 (F := F) V c) (defs₀ (F := F)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_kernel4 (F := F) c Set.univ (grid4.coords t)
    (win4_0.stage (cfg4.slots t 0)) (hstage4_0 ((cfg4.slots t 0).cast nbuf4_0))
    (win4_1.stage (cfg4.slots t 1)) (hstage4_1 ((cfg4.slots t 1).cast nbuf4_1))
    (win4_2.stage (cfg4.slots t 2)) (hstage4_2 ((cfg4.slots t 2).cast nbuf4_2))
    (win4_0.fill (grid4.coords t) d0 (iblk4 V c 0 t)) (win4_1.fill (grid4.coords t) d1 (iblk4 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win4 0).cut (grid4.coords t) (rows4 V c t) = iblk4 V c 0 t from win4_0.cut_fill _ _ _]
    iexact H0
  isplitl [H1]
  · iexists d1
    rw [show (win4 1).cut (grid4.coords t) (coef4 V c t) = iblk4 V c 1 t from win4_1.cut_fill _ _ _]
    iexact H1
  · iexists k4_pay1 (win4_0.fill (grid4.coords t) d0 (iblk4 V c 0 t)) (win4_1.fill (grid4.coords t) d1 (iblk4 V c 1 t))
    rw [show (win4 2).fill (grid4.coords t) (k4_pay1 (win4_0.fill (grid4.coords t) d0 (iblk4 V c 0 t)) (win4_1.fill (grid4.coords t) d1 (iblk4 V c 1 t)))
          ((win4 2).cut (grid4.coords t) (k4_pay1 (rows4 V c t) (coef4 V c t)))
        = k4_pay1 (win4_0.fill (grid4.coords t) d0 (iblk4 V c 0 t)) (win4_1.fill (grid4.coords t) d1 (iblk4 V c 1 t)) from
      ((congrArg (win4_2.fill (grid4.coords t) _) (cut_pay4 V c t d0 d1)).symm).trans (win4_2.fill_cut _ _)]
    iexact H2

end Cert.KernelIdeal.Hand

end
-- ==== Proof.Ideal.Bias2.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- At point `t` the output block is the body's value of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay1 (iblk5 V c 0 t) (iblk5 V c 1 t)
  Φ _ := Pipeline.ΦA spec5 c
  q _ := fullShare
  owed _ := 0

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d

theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem hz5 : (![0, 0] : Fin 2 → Nat) = fun _ => 0 := funext fun a => by fin_cases a <;> rfl

set_option maxHeartbeats 1000000 in
/-- The body writes its value of the two inputs into the output and leaves the inputs as they are. -/
theorem kernel_run5 (c : Dev nD) (E : Set ℕ) (i : grid5.Coords)
    (arg1 : Memref sig .tc .vmem S10000x64 .f32) (harg1 : arg1.IsWhole)
    (arg2 : Memref sig .tc .vmem S1x64 .f32) (harg2 : arg2.IsWhole)
    (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k5_pay1 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz5 inb_S10000x64_S10000x64_0_0 y⟩
  · rw [View.canon_unit_zero hz5, View.readAt_eq_ld, View.readAt_eq_ld, View.ld_unit_zero hz5, View.ld_unit_zero hz5]

theorem body_obligation5 (c : Dev nD) : BodyObligation (dat5 (F := F) V c) (defs₀ (F := F)) Variants.none () Set.univ := fun t => by
  rw [bigSep_W5, bigSep_W5]
  show iprop((dat5 V c).Φ t.castSucc ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d)))
    ⊢ wp frame (wpE (defs₀ (F := F)) Variants.none c none) Set.univ (bodyAt5 t) fun _ =>
      iprop((dat5 V c).Φ t.castSucc ∗ (dat5 V c).owesAt () t.castSucc
        ∗ owns (c : Thread nD τ) (st5_0 t) fullShare (iblk5 V c 0 t)
        ∗ owns (c : Thread nD τ) (st5_1 t) fullShare (iblk5 V c 1 t)
        ∗ owns (c : Thread nD τ) (st5_2 t) fullShare (k5_pay1 (iblk5 V c 0 t) (iblk5 V c 1 t)))
  simp only [before5_0, before5_1]
  iintro ⟨HΦ, Ho, ⟨%d0, H0⟩, ⟨%d1, H1⟩, ⟨%d2, H2⟩⟩
  iapply (kernel_run5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Dense3.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- At point `t` the output block is the body's value of the two input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay1 (iblk6 V c 0 t) (iblk6 V c 1 t)
  Φ _ := Pipeline.ΦA spec6 c
  q _ := fullShare
  owed _ := 0

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d

theorem before6_1 (c : Dev nD) (t : Fin cfg6.N) (d) : (dat6 V c).before 1 t d = iblk6 V c 1 t :=
  (dat6 V c).before_in_eq_fetched 1 rfl (fun _ => rfl) (fun _ _ _ => rfl) (fun _ => rfl) t d

theorem hz6 : (![0, 0] : Fin 2 → Nat) = fun _ => 0 := funext fun a => by fin_cases a <;> rfl

set_option maxHeartbeats 1000000 in
/-- The body writes its value of the two inputs into the output and leaves the inputs as they are. -/
theorem kernel_run6 (c : Dev nD) (E : Set ℕ) (i : grid6.Coords)
    (arg1 : Memref sig .tc .vmem S10000x64 .f32) (harg1 : arg1.IsWhole)
    (arg2 : Memref sig .tc .vmem S64x40 .f32) (harg2 : arg2.IsWhole)
    (arg3 : Memref sig .tc .vmem S10000x40 .f32) (harg3 : arg3.IsWhole)
    (x0 : Vec F S10000x64 .f32) (x1 : Vec F S64x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k6_pay1 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz6 inb_S10000x40_S10000x40_0_0 y⟩
  · rw [View.canon_unit_zero hz6, View.readAt_eq_ld, View.readAt_eq_ld, View.ld_unit_zero hz6, View.ld_unit_zero hz6]

theorem body_obligation6 (c : Dev nD) : BodyObligation (dat6 (F := F) V c) (defs₀ (F := F)) Variants.none () Set.univ := fun t => by
  rw [bigSep_W6, bigSep_W6]
  show iprop((dat6 V c).Φ t.castSucc ∗ (dat6 V c).owesAt () t.castSucc
      ∗ (∃ d, owns (c : Thread nD τ) (st6_0 t) fullShare ((dat6 V c).before 0 t d))
      ∗ (∃ d, owns (c : Thread nD τ) (st6_1 t) fullShare ((dat6 V c).before 1 t d))
      ∗ (∃ d, owns (c : Thread nD τ) (st6_2 t) fullShare ((dat6 V c).before 2 t d)))
    ⊢ wp frame (wpE (defs₀ (F := F)) Variants.none c none) Set.univ (bodyAt6 t) fun _ =>
      iprop((dat6 V c).Φ t.castSucc ∗ (dat6 V c).owesAt () t.castSucc
        ∗ owns (c : Thread nD τ) (st6_0 t) fullShare (iblk6 V c 0 t)
        ∗ owns (c : Thread nD τ) (st6_1 t) fullShare (iblk6 V c 1 t)
        ∗ owns (c : Thread nD τ) (st6_2 t) fullShare (k6_pay1 (iblk6 V c 0 t) (iblk6 V c 1 t)))
  simp only [before6_0, before6_1]
  iintro ⟨HΦ, Ho, ⟨%d0, H0⟩, ⟨%d1, H1⟩, ⟨%d2, H2⟩⟩
  iapply (kernel_run6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Scale3.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, the part of it inside its array. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The message rows at point `t`, zero past the array's end. -/
def rows7 (c : Dev nD) (t : Fin cfg7.N) : S8192x40.Idx → Elt F .f32 :=
  win7_0.fill (grid7.coords t) (fun _ => Scalar.ofBits .f32 0#32) (iblk7 V c 0 t)

/-- The rows' coefficients at point `t`, zero past the array's end. -/
def coef7 (c : Dev nD) (t : Fin cfg7.N) : S8192x1.Idx → Elt F .f32 :=
  win7_1.fill (grid7.coords t) (fun _ => Scalar.ofBits .f32 0#32) (iblk7 V c 1 t)

def dat7 (c : Dev nD) : Dat τ (Elt F) Unit ℕ (UR sig nD τ) ℕ cfg7 c where
  A w := V c (Pipeline.arrRef spec7 w)
  after w t := match w with
    | ⟨0, _⟩ => rows7 V c t
    | ⟨1, _⟩ => coef7 V c t
    | ⟨2, _⟩ => k7_pay1 (rows7 V c t) (coef7 V c t)
  Φ _ := Pipeline.ΦA spec7 c
  q _ := fullShare
  owed _ := 0

def rowIx7 (j : S8192x40.Idx) : S8192x1.Idx := fun a => match a with
  | ⟨0, _⟩ => ⟨(j 0).val, (j 0).isLt⟩
  | ⟨1, _⟩ => ⟨0, Nat.one_pos⟩

/-- Entry `j` of the body's value is the row's entry times the row's coefficient. -/
theorem k7_pay1_apply (x : Vec F S8192x40 .f32) (n : Vec F S8192x1 .f32) (j : S8192x40.Idx) :
    k7_pay1 x n j = FloatOps.mulf (x j) (n (rowIx7 j)) := by
  unfold k7_pay1 mulf broadcastTo shapeCast
  simp only [Shape.reshapeEquiv_self]
  refine congrArg _ (congrArg n (funext fun a => Fin.ext ?_))
  match a with
  | ⟨0, _⟩ => rfl
  | ⟨1, _⟩ => rfl

theorem hz7 : (![0, 0] : Fin 2 → Nat) = fun _ => 0 := funext fun a => by fin_cases a <;> rfl

set_option maxHeartbeats 1000000 in
theorem sound_kernel7 (c : Dev nD) (E : Set ℕ) (i : grid7.Coords) (arg1 : Memref sig .tc .vmem S8192x40 .f32) (harg1 : arg1.IsWhole) (arg2 : Memref sig .tc .vmem S8192x1 .f32) (harg2 : arg2.IsWhole) (arg3 : Memref sig .tc .vmem S8192x40 .f32) (harg3 : arg3.IsWhole)
    (x0 : Vec F S8192x40 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k7_pay1 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz7 inb_S8192x40_S8192x40_0_0 y⟩
  · rw [View.canon_unit_zero hz7, View.readAt_eq_ld, View.readAt_eq_ld, View.ld_unit_zero hz7, View.ld_unit_zero hz7]

theorem before7_0 (c : Dev nD) (t : Fin cfg7.N) (d) :
    (dat7 V c).before (0 : Fin 3) t d = win7_0.fill (grid7.coords t) d (iblk7 V c 0 t) := by
  unfold Dat.before; rw [if_pos (fetch7_0 t)]; rfl
theorem before7_1 (c : Dev nD) (t : Fin cfg7.N) (d) :
    (dat7 V c).before (1 : Fin 3) t d = win7_1.fill (grid7.coords t) d (iblk7 V c 1 t) := by
  unfold Dat.before; rw [if_pos (fetch7_1 t)]; rfl
theorem after7_0 (c : Dev nD) (t : Fin cfg7.N) : (dat7 V c).after (0 : Fin 3) t = rows7 V c t := by dsimp only [dat7]
theorem after7_1 (c : Dev nD) (t : Fin cfg7.N) : (dat7 V c).after (1 : Fin 3) t = coef7 V c t := by dsimp only [dat7]
theorem after7_2 (c : Dev nD) (t : Fin cfg7.N) : (dat7 V c).after (2 : Fin 3) t = k7_pay1 (rows7 V c t) (coef7 V c t) := by dsimp only [dat7]

theorem fill_congr7 {G : Pipeline.Grid} (w : Window sig G) {α : Type} (i : G.Coords) (d d' : w.block.Idx → α)
    (g : (w.xblock i).Idx → α) {J : w.block.Idx} (h : w.moved i J = true) : w.fill i d g J = w.fill i d' g J := by
  unfold Window.fill; rw [dif_pos h, dif_pos h]

theorem moved7_0 (i : grid7.Coords) (j : (win7_2.xblock i).Idx) : win7_0.moved i (win7_2.xinj i j) = true :=
  (win7_0.moved_iff i _).mpr fun a => (j a).isLt

theorem moved7_1 (i : grid7.Coords) (j : (win7_2.xblock i).Idx) : win7_1.moved i (rowIx7 (win7_2.xinj i j)) = true :=
  (win7_1.moved_iff i _).mpr fun a => match a with
    | ⟨0, _⟩ => (j 0).isLt
    | ⟨1, _⟩ => Nat.one_pos

/-- On the rows inside the array the body's value does not depend on what lies past the array's end. -/
theorem cut_pay7 (c : Dev nD) (t : Fin cfg7.N) (d0 : S8192x40.Idx → Elt F .f32) (d1 : S8192x1.Idx → Elt F .f32) :
    win7_2.cut (grid7.coords t) (k7_pay1 (win7_0.fill (grid7.coords t) d0 (iblk7 V c 0 t)) (win7_1.fill (grid7.coords t) d1 (iblk7 V c 1 t)))
      = win7_2.cut (grid7.coords t) (k7_pay1 (rows7 V c t) (coef7 V c t)) := by
  funext j
  show k7_pay1 _ _ (win7_2.xinj _ j) = k7_pay1 _ _ (win7_2.xinj _ j)
  rw [k7_pay1_apply, k7_pay1_apply]
  exact congrArg₂ _ (fill_congr7 win7_0 _ _ _ _ (moved7_0 _ j)) (fill_congr7 win7_1 _ _ _ _ (moved7_1 _ j))

theorem body_obligation7 (c : Dev nD) : BodyObligationLoose (dat7 (F := F) V c) (defs₀ (F := F)) Variants.none () Set.univ := fun t => by
  rw [bigSep_W7, bigSep_W7]
  simp only
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  rw [before7_0 V c t d0, before7_1 V c t d1]
  iapply (sound_kernel7 (F := F) c Set.univ (grid7.coords t)
    (win7_0.stage (cfg7.slots t 0)) (hstage7_0 ((cfg7.slots t 0).cast nbuf7_0))
    (win7_1.stage (cfg7.slots t 1)) (hstage7_1 ((cfg7.slots t 1).cast nbuf7_1))
    (win7_2.stage (cfg7.slots t 2)) (hstage7_2 ((cfg7.slots t 2).cast nbuf7_2))
    (win7_0.fill (grid7.coords t) d0 (iblk7 V c 0 t)) (win7_1.fill (grid7.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [show (win7 0).cut (grid7.coords t) (rows7 V c t) = iblk7 V c 0 t from win7_0.cut_fill _ _ _]
    iexact H0
  isplitl [H1]
  · iexists d1
    rw [show (win7 1).cut (grid7.coords t) (coef7 V c t) = iblk7 V c 1 t from win7_1.cut_fill _ _ _]
    iexact H1
  · iexists k7_pay1 (win7_0.fill (grid7.coords t) d0 (iblk7 V c 0 t)) (win7_1.fill (grid7.coords t) d1 (iblk7 V c 1 t))
    rw [show (win7 2).fill (grid7.coords t) (k7_pay1 (win7_0.fill (grid7.coords t) d0 (iblk7 V c 0 t)) (win7_1.fill (grid7.coords t) d1 (iblk7 V c 1 t)))
          ((win7 2).cut (grid7.coords t) (k7_pay1 (rows7 V c t) (coef7 V c t)))
        = k7_pay1 (win7_0.fill (grid7.coords t) d0 (iblk7 V c 0 t)) (win7_1.fill (grid7.coords t) d1 (iblk7 V c 1 t)) from
      ((congrArg (win7_2.fill (grid7.coords t) _) (cut_pay7 V c t d0 d1)).symm).trans (win7_2.fill_cut _ _)]
    iexact H2

end Cert.KernelIdeal.Hand

end
-- ==== Proof.Ideal.Bias3.lean ====
import proofs.«430458_j3401614098765_3_alg».proof.Proof.Gen.KernelIdeal.Launch
import proofs.«430458_j3401614098765_3_alg».proof.Proof.Gen.KernelIdeal.Skeleton
import proofs.«430458_j3401614098765_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, cut out of its array. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- At point `t` the output block is the body's value of the two input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => k8_pay1 (iblk8 V c 0 t) (iblk8 V c 1 t)
  Φ _ := Pipeline.ΦA spec8 c
  q _ := fullShare
  owed _ := 0

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d

theorem before8_1 (c : Dev nD) (t : Fin cfg8.N) (d) : (dat8 V c).before 1 t d = iblk8 V c 1 t :=
  (dat8 V c).before_in_eq_fetched 1 rfl (fun _ => rfl) (fun _ _ _ => rfl) (fun _ => rfl) t d

theorem hz8 : (![0, 0] : Fin 2 → Nat) = fun _ => 0 := funext fun a => by fin_cases a <;> rfl

set_option maxHeartbeats 1000000 in
/-- The body writes its value of the two inputs into the output and leaves the inputs as they are. -/
theorem kernel_run8 (c : Dev nD) (E : Set ℕ) (i : grid8.Coords)
    (arg1 : Memref sig .tc .vmem S10000x40 .f32) (harg1 : arg1.IsWhole)
    (arg2 : Memref sig .tc .vmem S1x40 .f32) (harg2 : arg2.IsWhole)
    (arg3 : Memref sig .tc .vmem S10000x40 .f32) (harg3 : arg3.IsWhole)
    (x0 : Vec F S10000x40 .f32) (x1 : Vec F S1x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k8_pay1 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ ?_).trans ?_
  · exact fun y => ⟨_, List.mem_singleton_self _, View.mem_set_unit_zero hz8 inb_S10000x40_S10000x40_0_0 y⟩
  · rw [View.canon_unit_zero hz8, View.readAt_eq_ld, View.readAt_eq_ld, View.ld_unit_zero hz8, View.ld_unit_zero hz8]

theorem body_obligation8 (c : Dev nD) : BodyObligation (dat8 (F := F) V c) (defs₀ (F := F)) Variants.none () Set.univ := fun t => by
  rw [bigSep_W8, bigSep_W8]
  show iprop((dat8 V c).Φ t.castSucc ∗ (dat8 V c).owesAt () t.castSucc
      ∗ (∃ d, owns (c : Thread nD τ) (st8_0 t) fullShare ((dat8 V c).before 0 t d))
      ∗ (∃ d, owns (c : Thread nD τ) (st8_1 t) fullShare ((dat8 V c).before 1 t d))
      ∗ (∃ d, owns (c : Thread nD τ) (st8_2 t) fullShare ((dat8 V c).before 2 t d)))
    ⊢ wp frame (wpE (defs₀ (F := F)) Variants.none c none) Set.univ (bodyAt8 t) fun _ =>
      iprop((dat8 V c).Φ t.castSucc ∗ (dat8 V c).owesAt () t.castSucc
        ∗ owns (c : Thread nD τ) (st8_0 t) fullShare (iblk8 V c 0 t)
        ∗ owns (c : Thread nD τ) (st8_1 t) fullShare (iblk8 V c 1 t)
        ∗ owns (c : Thread nD τ) (st8_2 t) fullShare (k8_pay1 (iblk8 V c 0 t) (iblk8 V c 1 t)))
  simp only [before8_0, before8_1]
  iintro ⟨HΦ, Ho, ⟨%d0, H0⟩, ⟨%d1, H1⟩, ⟨%d2, H2⟩⟩
  iapply (kernel_run8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.Ideal.Vals.lean ====
import proofs.«430458_j3401614098765_3_alg».proof.Proof.Ideal.Dense1
import proofs.«430458_j3401614098765_3_alg».proof.Proof.Ideal.Scale1
import proofs.«430458_j3401614098765_3_alg».proof.Proof.Ideal.Bias1
import proofs.«430458_j3401614098765_3_alg».proof.Proof.Ideal.Dense2
import proofs.«430458_j3401614098765_3_alg».proof.Proof.Ideal.Scale2
import proofs.«430458_j3401614098765_3_alg».proof.Proof.Ideal.Bias2
import proofs.«430458_j3401614098765_3_alg».proof.Proof.Ideal.Dense3
import proofs.«430458_j3401614098765_3_alg».proof.Proof.Ideal.Scale3
import proofs.«430458_j3401614098765_3_alg».proof.Proof.Ideal.Bias3
import proofs.«430458_j3401614098765_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) :=
  fun c b => W c b

/-- The memory after each region is the memory before it with the region's output array replaced by what its blocks wrote. -/
def W4 (c : Dev nD) : Valuation τ sig (Elt F) := Function.update (V3 m c) main_v30 ((dat0 (rd (V3 m)) c).arrAt 2 cfg0.N)
abbrev W5 (c : Dev nD) : Valuation τ sig (Elt F) := StableHlo.after hostOps1 (W4 m c)
abbrev W6 (c : Dev nD) : Valuation τ sig (Elt F) := StableHlo.after hostOps1_1 (W5 m c)
def W7 (c : Dev nD) : Valuation τ sig (Elt F) := Function.update (W6 m c) main_v33 ((dat1 (rd (W6 m)) c).arrAt 2 cfg1.N)
abbrev W8 (c : Dev nD) : Valuation τ sig (Elt F) := StableHlo.after hostOps2 (W7 m c)
def W9 (c : Dev nD) : Valuation τ sig (Elt F) := Function.update (W8 m c) main_v38 ((dat2 (rd (W8 m)) c).arrAt 2 cfg2.N)
def W10 (c : Dev nD) : Valuation τ sig (Elt F) := Function.update (W9 m c) main_v39 ((dat3 (rd (W9 m)) c).arrAt 2 cfg3.N)
abbrev W11 (c : Dev nD) : Valuation τ sig (Elt F) := StableHlo.after hostOps4 (W10 m c)
abbrev W12 (c : Dev nD) : Valuation τ sig (Elt F) := StableHlo.after hostOps4_1 (W11 m c)
def W13 (c : Dev nD) : Valuation τ sig (Elt F) := Function.update (W12 m c) main_v42 ((dat4 (rd (W12 m)) c).arrAt 2 cfg4.N)
abbrev W14 (c : Dev nD) : Valuation τ sig (Elt F) := StableHlo.after hostOps5 (W13 m c)
def W15 (c : Dev nD) : Valuation τ sig (Elt F) := Function.update (W14 m c) main_v47 ((dat5 (rd (W14 m)) c).arrAt 2 cfg5.N)
def W16 (c : Dev nD) : Valuation τ sig (Elt F) := Function.update (W15 m c) main_v48 ((dat6 (rd (W15 m)) c).arrAt 2 cfg6.N)
abbrev W17 (c : Dev nD) : Valuation τ sig (Elt F) := StableHlo.after hostOps7 (W16 m c)
abbrev W18 (c : Dev nD) : Valuation τ sig (Elt F) := StableHlo.after hostOps7_1 (W17 m c)
def W19 (c : Dev nD) : Valuation τ sig (Elt F) := Function.update (W18 m c) main_v51 ((dat7 (rd (W18 m)) c).arrAt 2 cfg7.N)
abbrev W20 (c : Dev nD) : Valuation τ sig (Elt F) := StableHlo.after hostOps8 (W19 m c)
def W21 (c : Dev nD) : Valuation τ sig (Elt F) := Function.update (W20 m c) main_v56 ((dat8 (rd (W20 m)) c).arrAt 2 cfg8.N)

def outs : Outs (F := F) := fun J r c =>
  match J with
  | 4 => W4 m c r
  | 7 => W7 m c r
  | 9 => W9 m c r
  | 10 => W10 m c r
  | 13 => W13 m c r
  | 15 => W15 m c r
  | 16 => W16 m c r
  | 19 => W19 m c r
  | _ => W21 m c r

theorem update_read {β : DevRef τ sig → Type} [DecidableEq (DevRef τ sig)] (f : (b : DevRef τ sig) → β b) (a : DevRef τ sig) (v : β a) :
    Function.update f a (Function.update f a v a) = Function.update f a v := by
  rw [Function.update_self]

theorem V4_eq (c : Dev nD) : V4 m (outs m) c = W4 m c := update_read _ _ _
theorem V5_eq (c : Dev nD) : V5 m (outs m) c = W5 m c := by show StableHlo.after hostOps1 (V4 m (outs m) c) = _; rw [V4_eq]
theorem V6_eq (c : Dev nD) : V6 m (outs m) c = W6 m c := by show StableHlo.after hostOps1_1 (V5 m (outs m) c) = _; rw [V5_eq]
theorem V7_eq (c : Dev nD) : V7 m (outs m) c = W7 m c := by
  show Function.update (V6 m (outs m) c) main_v33 (W7 m c main_v33) = _; rw [V6_eq]; exact update_read _ _ _
theorem V8_eq (c : Dev nD) : V8 m (outs m) c = W8 m c := by show StableHlo.after hostOps2 (V7 m (outs m) c) = _; rw [V7_eq]
theorem V9_eq (c : Dev nD) : V9 m (outs m) c = W9 m c := by
  show Function.update (V8 m (outs m) c) main_v38 (W9 m c main_v38) = _; rw [V8_eq]; exact update_read _ _ _
theorem V10_eq (c : Dev nD) : V10 m (outs m) c = W10 m c := by
  show Function.update (V9 m (outs m) c) main_v39 (W10 m c main_v39) = _; rw [V9_eq]; exact update_read _ _ _
theorem V11_eq (c : Dev nD) : V11 m (outs m) c = W11 m c := by show StableHlo.after hostOps4 (V10 m (outs m) c) = _; rw [V10_eq]
theorem V12_eq (c : Dev nD) : V12 m (outs m) c = W12 m c := by show StableHlo.after hostOps4_1 (V11 m (outs m) c) = _; rw [V11_eq]
theorem V13_eq (c : Dev nD) : V13 m (outs m) c = W13 m c := by
  show Function.update (V12 m (outs m) c) main_v42 (W13 m c main_v42) = _; rw [V12_eq]; exact update_read _ _ _
theorem V14_eq (c : Dev nD) : V14 m (outs m) c = W14 m c := by show StableHlo.after hostOps5 (V13 m (outs m) c) = _; rw [V13_eq]
theorem V15_eq (c : Dev nD) : V15 m (outs m) c = W15 m c := by
  show Function.update (V14 m (outs m) c) main_v47 (W15 m c main_v47) = _; rw [V14_eq]; exact update_read _ _ _
theorem V16_eq (c : Dev nD) : V16 m (outs m) c = W16 m c := by
  show Function.update (V15 m (outs m) c) main_v48 (W16 m c main_v48) = _; rw [V15_eq]; exact update_read _ _ _
theorem V17_eq (c : Dev nD) : V17 m (outs m) c = W17 m c := by show StableHlo.after hostOps7 (V16 m (outs m) c) = _; rw [V16_eq]
theorem V18_eq (c : Dev nD) : V18 m (outs m) c = W18 m c := by show StableHlo.after hostOps7_1 (V17 m (outs m) c) = _; rw [V17_eq]
theorem V19_eq (c : Dev nD) : V19 m (outs m) c = W19 m c := by
  show Function.update (V18 m (outs m) c) main_v51 (W19 m c main_v51) = _; rw [V18_eq]; exact update_read _ _ _
theorem V20_eq (c : Dev nD) : V20 m (outs m) c = W20 m c := by show StableHlo.after hostOps8 (V19 m (outs m) c) = _; rw [V19_eq]
theorem V21_eq (c : Dev nD) : V21 m (outs m) c = W21 m c := by
  show Function.update (V20 m (outs m) c) main_v56 (W21 m c main_v56) = _; rw [V20_eq]; exact update_read _ _ _

theorem W4_of (c : Dev nD) (r : Ref sig .tc) (h : r ≠ main_v30) : W4 m c r = V3 m c r := by
  unfold W4; exact Function.update_of_ne (StableHlo.devRef_ne_of_ne h) _ _
theorem W4_out (c : Dev nD) : W4 m c main_v30 = (dat0 (rd (V3 m)) c).arrAt 2 cfg0.N := by
  unfold W4; exact Function.update_self _ _ _
theorem W7_of (c : Dev nD) (r : Ref sig .tc) (h : r ≠ main_v33) : W7 m c r = W6 m c r := by
  unfold W7; exact Function.update_of_ne (StableHlo.devRef_ne_of_ne h) _ _
theorem W7_out (c : Dev nD) : W7 m c main_v33 = (dat1 (rd (W6 m)) c).arrAt 2 cfg1.N := by
  unfold W7; exact Function.update_self _ _ _
theorem W9_of (c : Dev nD) (r : Ref sig .tc) (h : r ≠ main_v38) : W9 m c r = W8 m c r := by
  unfold W9; exact Function.update_of_ne (StableHlo.devRef_ne_of_ne h) _ _
theorem W9_out (c : Dev nD) : W9 m c main_v38 = (dat2 (rd (W8 m)) c).arrAt 2 cfg2.N := by
  unfold W9; exact Function.update_self _ _ _
theorem W10_of (c : Dev nD) (r : Ref sig .tc) (h : r ≠ main_v39) : W10 m c r = W9 m c r := by
  unfold W10; exact Function.update_of_ne (StableHlo.devRef_ne_of_ne h) _ _
theorem W10_out (c : Dev nD) : W10 m c main_v39 = (dat3 (rd (W9 m)) c).arrAt 2 cfg3.N := by
  unfold W10; exact Function.update_self _ _ _
theorem W13_of (c : Dev nD) (r : Ref sig .tc) (h : r ≠ main_v42) : W13 m c r = W12 m c r := by
  unfold W13; exact Function.update_of_ne (StableHlo.devRef_ne_of_ne h) _ _
theorem W13_out (c : Dev nD) : W13 m c main_v42 = (dat4 (rd (W12 m)) c).arrAt 2 cfg4.N := by
  unfold W13; exact Function.update_self _ _ _
theorem W15_of (c : Dev nD) (r : Ref sig .tc) (h : r ≠ main_v47) : W15 m c r = W14 m c r := by
  unfold W15; exact Function.update_of_ne (StableHlo.devRef_ne_of_ne h) _ _
theorem W15_out (c : Dev nD) : W15 m c main_v47 = (dat5 (rd (W14 m)) c).arrAt 2 cfg5.N := by
  unfold W15; exact Function.update_self _ _ _
theorem W16_of (c : Dev nD) (r : Ref sig .tc) (h : r ≠ main_v48) : W16 m c r = W15 m c r := by
  unfold W16; exact Function.update_of_ne (StableHlo.devRef_ne_of_ne h) _ _
theorem W16_out (c : Dev nD) : W16 m c main_v48 = (dat6 (rd (W15 m)) c).arrAt 2 cfg6.N := by
  unfold W16; exact Function.update_self _ _ _
theorem W19_of (c : Dev nD) (r : Ref sig .tc) (h : r ≠ main_v51) : W19 m c r = W18 m c r := by
  unfold W19; exact Function.update_of_ne (StableHlo.devRef_ne_of_ne h) _ _
theorem W19_out (c : Dev nD) : W19 m c main_v51 = (dat7 (rd (W18 m)) c).arrAt 2 cfg7.N := by
  unfold W19; exact Function.update_self _ _ _
theorem W21_of (c : Dev nD) (r : Ref sig .tc) (h : r ≠ main_v56) : W21 m c r = W20 m c r := by
  unfold W21; exact Function.update_of_ne (StableHlo.devRef_ne_of_ne h) _ _
theorem W21_out (c : Dev nD) : W21 m c main_v56 = (dat8 (rd (W20 m)) c).arrAt 2 cfg8.N := by
  unfold W21; exact Function.update_self _ _ _

abbrev adm : (p : Fin 9) → (pcfgs (F := F) p).Adm := fun p => (cfgs p).toPCfg_adm

def pdats : (p : Fin 9) → (c : Dev nD) → Dat τ (Elt F) Unit ℕ (UR sig nD τ) ℕ (cfgs p) c
  | ⟨0, _⟩ => fun c => dat0 (rd (V3 m)) c
  | ⟨1, _⟩ => fun c => dat1 (rd (W6 m)) c
  | ⟨2, _⟩ => fun c => dat2 (rd (W8 m)) c
  | ⟨3, _⟩ => fun c => dat3 (rd (W9 m)) c
  | ⟨4, _⟩ => fun c => dat4 (rd (W12 m)) c
  | ⟨5, _⟩ => fun c => dat5 (rd (W14 m)) c
  | ⟨6, _⟩ => fun c => dat6 (rd (W15 m)) c
  | ⟨7, _⟩ => fun c => dat7 (rd (W18 m)) c
  | ⟨8, _⟩ => fun c => dat8 (rd (W20 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

end Cert.KernelIdeal.Hand

end
-- ==== Proof.Ideal.Regs.lean ====
import proofs.«430458_j3401614098765_3_alg».proof.Proof.Ideal.Vals
import Idealize.ShloMosaic.Lib.Pipeline.Frame
import Idealize.ShloMosaic.Lib.Pipeline.Regions
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

section
variable (p : Fin 9) (launch : Pipeline.LaunchFacts (nD := nD) (τ := τ) cfgs p) (o : Fin (cfgs p).W)
  (Vin Vout : Dev nD → Valuation τ sig (Elt F))
  (hbody : ∀ c, BodyObligationLoose (pdats m p c) (defs₀ (F := F)) 𝒱₀ () Set.univ)
  (hA : ∀ c w, (pdats m p c).A w = rd Vin c (Pipeline.arrRef (cfgs p).spec w))
  (hin : ∀ w, w ≠ o → ((cfgs p).win w).isOut = false)
  (hof : ∀ c (r : Ref sig .tc), r ≠ Pipeline.arrRef (cfgs p).spec o → Vout c r = Vin c r)
  (hout : ∀ c, Vout c (Pipeline.arrRef (cfgs p).spec o) = (pdats m p c).arrAt o (cfgs p).N)
  (hΦ : ∀ c t, (pdats m p c).Φ t = Pipeline.ΦA (cfgs p).spec c)
  (hq : ∀ c w, (pdats m p c).q w = fullShare)
  (howed : ∀ c t, (pdats m p c).owed t = 0)
  (hrec : ∀ c t, (pdats m p c).recorded t = Set.univ)

include launch hA hin hof hout in
/-- After region `p` its output array holds what its blocks wrote and every other array is as before. -/
theorem exit_arr (c : Dev nD) (w : Fin (cfgs p).W) :
    (pdats m p c).arrAt w (cfgs p).N = rd Vout c (Pipeline.arrRef (cfgs p).spec w) := by
  by_cases h : w = o
  · subst h; exact (hout c).symm
  · exact (((pdats m p c).arrAt_in w (hin w h) _).trans (hA c w)).trans
      (hof c _ fun e => h (launch.win.arr_inj e)).symm

set_option backward.isDefEq.respectTransparency.types false in
/-- Region `p` takes the memory `Vin` to the memory `Vout`. -/
def regOf : Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (rd Vin c)
  hentry c := by
    rw [Pipeline.ownSems0_none]
    have hsplit := Pipeline.arrays_of_unscopedBufs (p := p) (pcfgs (F := F)) adm (pdats m) launch.win launch.arr_whole c
      ((pdats m p c).share_full (hq c)) (rd Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (rd Vin c) (rd Vout c) ((pdats m p c).arrAt · (cfgs p).N) (exit_arr m p launch o Vin Vout hA hin hof hout c)
      fun b hb => hof c b fun h => hb (h ▸ Finset.mem_image.mpr ⟨o, Finset.mem_univ _, rfl⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

end

def reg0 := regOf m 0 launch0 2 (V3 m) (W4 m) (fun c => (body_obligation0 (rd (V3 m)) c).loose) (fun _ _ => rfl) (by decide) (W4_of m) (W4_out m) (fun _ _ => rfl) (fun _ _ => rfl) (fun _ _ => rfl) (fun _ _ => rfl)
def reg1 := regOf m 1 launch1 2 (W6 m) (W7 m) (body_obligation1 (rd (W6 m))) (fun _ _ => rfl) (by decide) (W7_of m) (W7_out m) (fun _ _ => rfl) (fun _ _ => rfl) (fun _ _ => rfl) (fun _ _ => rfl)
def reg2 := regOf m 2 launch2 2 (W8 m) (W9 m) (fun c => (body_obligation2 (rd (W8 m)) c).loose) (fun _ _ => rfl) (by decide) (W9_of m) (W9_out m) (fun _ _ => rfl) (fun _ _ => rfl) (fun _ _ => rfl) (fun _ _ => rfl)
def reg3 := regOf m 3 launch3 2 (W9 m) (W10 m) (fun c => (body_obligation3 (rd (W9 m)) c).loose) (fun _ _ => rfl) (by decide) (W10_of m) (W10_out m) (fun _ _ => rfl) (fun _ _ => rfl) (fun _ _ => rfl) (fun _ _ => rfl)
def reg4 := regOf m 4 launch4 2 (W12 m) (W13 m) (body_obligation4 (rd (W12 m))) (fun _ _ => rfl) (by decide) (W13_of m) (W13_out m) (fun _ _ => rfl) (fun _ _ => rfl) (fun _ _ => rfl) (fun _ _ => rfl)
def reg5 := regOf m 5 launch5 2 (W14 m) (W15 m) (fun c => (body_obligation5 (rd (W14 m)) c).loose) (fun _ _ => rfl) (by decide) (W15_of m) (W15_out m) (fun _ _ => rfl) (fun _ _ => rfl) (fun _ _ => rfl) (fun _ _ => rfl)
def reg6 := regOf m 6 launch6 2 (W15 m) (W16 m) (fun c => (body_obligation6 (rd (W15 m)) c).loose) (fun _ _ => rfl) (by decide) (W16_of m) (W16_out m) (fun _ _ => rfl) (fun _ _ => rfl) (fun _ _ => rfl) (fun _ _ => rfl)
def reg7 := regOf m 7 launch7 2 (W18 m) (W19 m) (body_obligation7 (rd (W18 m))) (fun _ _ => rfl) (by decide) (W19_of m) (W19_out m) (fun _ _ => rfl) (fun _ _ => rfl) (fun _ _ => rfl) (fun _ _ => rfl)
def reg8 := regOf m 8 launch8 2 (W20 m) (W21 m) (fun c => (body_obligation8 (rd (W20 m)) c).loose) (fun _ _ => rfl) (by decide) (W21_of m) (W21_out m) (fun _ _ => rfl) (fun _ _ => rfl) (fun _ _ => rfl) (fun _ _ => rfl)

variable (ρ : Dev nD → PrngReg)

abbrev u₀ : UR sig nD τ := initOf (Pipeline.cells cfgs cellOf_inj) (Pipeline.launchToks cfgs cellOf_inj)

theorem launch_tokens : (ownU (u₀) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem launch_rest (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) ⊢ R (F := F) c := by
  iintro ⟨-, HO, -, Hp, -⟩
  isplitl [Hp]; · iexists _; iexact Hp
  iexists ∅; iexact HO

theorem launch_rests :
    (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ fun c : Dev nD => R (F := F) c : sProp 𝕄) :=
  bigSep_mono fun c _ => launch_rest (F := F) ρ c

end Cert.KernelIdeal.Hand

end
-- ==== Proof.Ideal.Run.lean ====
import proofs.«430458_j3401614098765_3_alg».proof.Proof.Ideal.Regs
import Idealize.ShloMosaic.Lib.Pipeline.Frame
import Idealize.ShloMosaic.Lib.Pipeline.Regions
import Idealize.ShloMosaic.Lib.Pipeline.Kit

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- The program runs through its nine regions and ends with its result array at the last memory's value, the arguments unchanged. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V12 m outs c) ∗ E 4 c) ⊢ R4.pre c)
    (hpost4 : ∀ c : Dev nD, R4.post c ⊢ iprop(StableHlo.held (c : Thread nD τ) (Pipeline.ucRefs τ sig) (V13 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V14 m outs c) ∗ E 5 c) ⊢ R5.pre c)
    (hpost5 : ∀ c : Dev nD, R5.post c ⊢ iprop(StableHlo.held (c : Thread nD τ) (Pipeline.ucRefs τ sig) (V15 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V18 m outs c) ∗ E 7 c) ⊢ R7.pre c)
    (hpost7 : ∀ c : Dev nD, R7.post c ⊢ iprop(StableHlo.held (c : Thread nD τ) (Pipeline.ucRefs τ sig) (V19 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V20 m outs c) ∗ E 8 c) ⊢ R8.pre c)
    (hpost8 : ∀ c : Dev nD, R8.post c ⊢ iprop(StableHlo.held (c : Thread nD τ) (Pipeline.ucRefs τ sig) (V21 m outs c) ∗ E 9 c)) :
    θ_run defs (onTc (τ := τ) (main (F := F))) ⟨m, fun _ => 0, ρ⟩ (fun r => ∀ c : Dev nD,
      r.2.mem ((c.tc : Thread nD τ).loc main_v56) = V21 m outs c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          Prog.lift (.customCall (Pipeline.entry 2) ()),
          Prog.lift (.customCall (Pipeline.entry 3) ()),
          StableHlo.seq hostOps4,
          StableHlo.seq hostOps4_1,
          Prog.lift (.customCall (Pipeline.entry 4) ()),
          StableHlo.seq hostOps5,
          Prog.lift (.customCall (Pipeline.entry 5) ()),
          Prog.lift (.customCall (Pipeline.entry 6) ()),
          StableHlo.seq hostOps7,
          StableHlo.seq hostOps7_1,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, hpre0 c, hpost0 c, .rfl, hpre1 c, hpost1 c, hpre2 c, (hpost2 c).trans (hpre3 c), hpost3 c, .rfl, hpre4 c, hpost4 c, hpre5 c, (hpost5 c).trans (hpre6 c), hpost6 c, .rfl, hpre7 c, hpost7 c, hpre8 c, (hpost8 c).trans (sep_mono .rfl (hE9 c))⟩)
    (hinit := ?_) (QY := fun c s => s.mem ((c.tc : Thread nD τ).loc main_v56) = V21 m outs c main_v56 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V21 m outs c) s') $$ [Hh HSI]
    · isplitl [Hh] <;> iassumption
    icases Hr with ⟨%h, HSI⟩
    imodintro
    isplitr
    · ipureintro
      exact ⟨h (Proc.devRef .tc main_v56) (Finset.mem_filter.mpr ⟨StableHlo.devRef_mem_tcRefs main_v56, by decide⟩),
        (h (Proc.devRef .tc main_arg0) (Finset.mem_filter.mpr ⟨StableHlo.devRef_mem_tcRefs main_arg0, by decide⟩)).trans (V21_main_arg0 m outs c),
        (h (Proc.devRef .tc main_arg1) (Finset.mem_filter.mpr ⟨StableHlo.devRef_mem_tcRefs main_arg1, by decide⟩)).trans (V21_main_arg1 m outs c),
        (h (Proc.devRef .tc main_arg2) (Finset.mem_filter.mpr ⟨StableHlo.devRef_mem_tcRefs main_arg2, by decide⟩)).trans (V21_main_arg2 m outs c),
        (h (Proc.devRef .tc main_arg3) (Finset.mem_filter.mpr ⟨StableHlo.devRef_mem_tcRefs main_arg3, by decide⟩)).trans (V21_main_arg3 m outs c),
        (h (Proc.devRef .tc main_arg4) (Finset.mem_filter.mpr ⟨StableHlo.devRef_mem_tcRefs main_arg4, by decide⟩)).trans (V21_main_arg4 m outs c),
        (h (Proc.devRef .tc main_arg5) (Finset.mem_filter.mpr ⟨StableHlo.devRef_mem_tcRefs main_arg5, by decide⟩)).trans (V21_main_arg5 m outs c),
        (h (Proc.devRef .tc main_arg6) (Finset.mem_filter.mpr ⟨StableHlo.devRef_mem_tcRefs main_arg6, by decide⟩)).trans (V21_main_arg6 m outs c),
        (h (Proc.devRef .tc main_arg7) (Finset.mem_filter.mpr ⟨StableHlo.devRef_mem_tcRefs main_arg7, by decide⟩)).trans (V21_main_arg7 m outs c)⟩
    · iexact HSI

end Cert.KernelIdeal.Gen

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_main : θ_run defs (onTc (τ := τ) (main (F := F))) ⟨m, fun _ => 0, ρ⟩ (fun r => ∀ c : Dev nD,
      r.2.mem ((c.tc : Thread nD τ).loc main_v56) = W21 m c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := run_cond (F := F) m (emb₁ : Emb (UR sig nD τ) 𝕄) () 𝒱₀ L lv (fun _ _ => rfl) ρ (outs m) (pdats m)
    (0 : Dev nD → CellTallies nD τ sig Unit) (fun _ => (BI.emp : sProp 𝕄)) u₀ (launch_tokens (F := F))
    (fun _ c => R (F := F) c)
    (by iintro ⟨H, -⟩; imodintro; iapply (launch_rests (F := F) ρ); iexact H)
    (fun c => by iintro ⟨-, HO⟩; iexact HO)
    (reg0 m) (fun c => .rfl) (fun c => by rw [V4_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V9_eq]; exact .rfl) (fun c => by rw [V10_eq]; exact .rfl)
    (reg4 m) (fun c => by rw [V12_eq]; exact .rfl) (fun c => by rw [V13_eq]; exact .rfl)
    (reg5 m) (fun c => by rw [V14_eq]; exact .rfl) (fun c => by rw [V15_eq]; exact .rfl)
    (reg6 m) (fun c => by rw [V15_eq]; exact .rfl) (fun c => by rw [V16_eq]; exact .rfl)
    (reg7 m) (fun c => by rw [V18_eq]; exact .rfl) (fun c => by rw [V19_eq]; exact .rfl)
    (reg8 m) (fun c => by rw [V20_eq]; exact .rfl) (fun c => by rw [V21_eq]; exact .rfl)
  refine (θ_run defs _ _).mono (fun r hr c => ?_) h
  have := hr c
  rw [V21_eq] at this
  exact this

end Cert.KernelIdeal.Hand

end
-- ==== Proof.Ideal.HostReads.lean ====
import proofs.«430458_j3401614098765_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe
open Idealize.ShloMosaic.StableHlo

variable {F : FTy → Type} [FloatOps F]

theorem ofBuf_toBuf' {T : BufTy} (x : StableHlo.TRef sig T) (v : T.Contents (Elt F)) : x.ofBuf (x.toBuf v) = v := by
  obtain ⟨r, h, h2, h3⟩ := x
  subst h
  rfl
theorem ofBuf_v3 (h1 h2 h3) (v : IVec S1700000 32) : (StableHlo.TRef.of (T := ⟨S1700000, .i32⟩) main_v3 h1 h2 h3).ofBuf (Val := Elt F) v = v := rfl
theorem ofBuf_v30 (h1 h2 h3) (v : FVec F S100000x64 .f32) : (StableHlo.TRef.of (T := ⟨S100000x64, .f32⟩) main_v30 h1 h2 h3).ofBuf (Val := Elt F) v = v := rfl
theorem ofBuf_v39 (h1 h2 h3) (v : FVec F S100000x64 .f32) : (StableHlo.TRef.of (T := ⟨S100000x64, .f32⟩) main_v39 h1 h2 h3).ofBuf (Val := Elt F) v = v := rfl
theorem ofBuf_v48 (h1 h2 h3) (v : FVec F S100000x40 .f32) : (StableHlo.TRef.of (T := ⟨S100000x40, .f32⟩) main_v48 h1 h2 h3).ofBuf (Val := Elt F) v = v := rfl
theorem toBuf_v31 (h1 h2 h3) (v : FVec F S1700000x64 .f32) : (StableHlo.TRef.of (T := ⟨S1700000x64, .f32⟩) main_v31 h1 h2 h3).toBuf (Val := Elt F) v = v := rfl
theorem toBuf_v40 (h1 h2 h3) (v : FVec F S1700000x64 .f32) : (StableHlo.TRef.of (T := ⟨S1700000x64, .f32⟩) main_v40 h1 h2 h3).toBuf (Val := Elt F) v = v := rfl
theorem toBuf_v49 (h1 h2 h3) (v : FVec F S1700000x40 .f32) : (StableHlo.TRef.of (T := ⟨S1700000x40, .f32⟩) main_v49 h1 h2 h3).toBuf (Val := Elt F) v = v := rfl

/-- What each host stretch between the regions computes, as one term of the memory before it. -/
theorem src_read (W : Valuation τ sig (Elt F)) :
    StableHlo.after (hostOps0 (F := F)) W (Proc.devRef .tc main_v3) =
      (concatenate S1700000 0
        [⟨S1600000, shapeCast S1600000 (extractStridedSlice S1x1600000 ![0, 0] (W (Proc.devRef .tc main_arg1) : IVec S2x1600000 32) slices_S2x1600000_S1x1600000_0_0) shapeCasts_S1x1600000_S1600000⟩,
         ⟨S100000, iotaInDim S100000 32 0⟩] concatenates_S1600000_S100000_S1700000_d0 : IVec S1700000 32) := by
  after_results
  rfl

set_option maxHeartbeats 4000000 in
theorem take1_read (W : Valuation τ sig (Elt F)) :
    StableHlo.after (hostOps1 (F := F)) W (Proc.devRef .tc main_v31) =
      ((select (broadcastInDim S1700000x64 ![0] bcast_S1700000_S1700000x64_0 (Host.reduce IntOp.andi (andi (cmpi .sge (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![] bcast_S_S1700000x1 (constantI S_ 32 0#32))) (cmpi .sle (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![0, 1] bcast_S1x1_S1700000x1_0_1 (broadcastInDim S1x1 ![1] bcast_S1_S1x1_1 (constantI S1 32 99999#32))))) (constantI S_ 1 1#1) reducesTo_S1700000x1_S1700000_d1 h_S_)) (Host.gather gather_S100000x64_S1700000x1_S1700000x64_1_0_n_n_0_1_164 (W (Proc.devRef .tc main_v30) : FVec F S100000x64 .f32) (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32)))) (broadcastInDim S1700000x64 ![] bcast_S_S1700000x64 (constant S_ .f32 0x7FC00000#32))) : FVec F S1700000x64 .f32) := by
  refine Eq.trans (b := ?_) ?_ ?_
  rotate_left
  · after_results_simp
    exact rfl
  · simp only [ofBuf_toBuf', ofBuf_v3, ofBuf_v30, ofBuf_v39, ofBuf_v48, toBuf_v31, toBuf_v40, toBuf_v49]

set_option maxHeartbeats 4000000 in
theorem take2_read (W : Valuation τ sig (Elt F)) :
    StableHlo.after (hostOps4 (F := F)) W (Proc.devRef .tc main_v40) =
      ((select (broadcastInDim S1700000x64 ![0] bcast_S1700000_S1700000x64_0 (Host.reduce IntOp.andi (andi (cmpi .sge (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![] bcast_S_S1700000x1 (constantI S_ 32 0#32))) (cmpi .sle (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![0, 1] bcast_S1x1_S1700000x1_0_1 (broadcastInDim S1x1 ![1] bcast_S1_S1x1_1 (constantI S1 32 99999#32))))) (constantI S_ 1 1#1) reducesTo_S1700000x1_S1700000_d1 h_S_)) (Host.gather gather_S100000x64_S1700000x1_S1700000x64_1_0_n_n_0_1_164 (W (Proc.devRef .tc main_v39) : FVec F S100000x64 .f32) (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32)))) (broadcastInDim S1700000x64 ![] bcast_S_S1700000x64 (constant S_ .f32 0x7FC00000#32))) : FVec F S1700000x64 .f32) := by
  refine Eq.trans (b := ?_) ?_ ?_
  rotate_left
  · after_results_simp
    exact rfl
  · simp only [ofBuf_toBuf', ofBuf_v3, ofBuf_v30, ofBuf_v39, ofBuf_v48, toBuf_v31, toBuf_v40, toBuf_v49]

set_option maxHeartbeats 4000000 in
theorem take3_read (W : Valuation τ sig (Elt F)) :
    StableHlo.after (hostOps7 (F := F)) W (Proc.devRef .tc main_v49) =
      ((select (broadcastInDim S1700000x40 ![0] bcast_S1700000_S1700000x40_0 (Host.reduce IntOp.andi (andi (cmpi .sge (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![] bcast_S_S1700000x1 (constantI S_ 32 0#32))) (cmpi .sle (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32))) (broadcastInDim S1700000x1 ![0, 1] bcast_S1x1_S1700000x1_0_1 (broadcastInDim S1x1 ![1] bcast_S1_S1x1_1 (constantI S1 32 99999#32))))) (constantI S_ 1 1#1) reducesTo_S1700000x1_S1700000_d1 h_S_)) (Host.gather gather_S100000x40_S1700000x1_S1700000x40_1_0_n_n_0_1_140 (W (Proc.devRef .tc main_v48) : FVec F S100000x40 .f32) (broadcastInDim S1700000x1 ![0] bcast_S1700000_S1700000x1_0 (select (cmpi .slt (W (Proc.devRef .tc main_v3) : IVec S1700000 32) (broadcastInDim S1700000 ![] bcast_S_S1700000 (constantI S_ 32 0#32))) (addi (W (Proc.devRef .tc main_v3) : IVec S1700000 32) (broadcastInDim S1700000 ![] bcast_S_S1700000 (constantI S_ 32 100000#32))) (W (Proc.devRef .tc main_v3) : IVec S1700000 32)))) (broadcastInDim S1700000x40 ![] bcast_S_S1700000x40 (constant S_ .f32 0x7FC00000#32))) : FVec F S1700000x40 .f32) := by
  refine Eq.trans (b := ?_) ?_ ?_
  rotate_left
  · after_results_simp
    exact rfl
  · simp only [ofBuf_toBuf', ofBuf_v3, ofBuf_v30, ofBuf_v39, ofBuf_v48, toBuf_v31, toBuf_v40, toBuf_v49]

theorem coef1_read (W : Valuation τ sig (Elt F)) :
    StableHlo.after (hostOps1_1 (F := F)) W (Proc.devRef .tc main_v32) =
      (broadcastInDim S1700000x1 ![0] bcast_S1700000_S1700000x1_0 (W (Proc.devRef .tc main_v29) : FVec F S1700000 .f32) : FVec F S1700000x1 .f32) := by
  after_results
theorem coef2_read (W : Valuation τ sig (Elt F)) :
    StableHlo.after (hostOps4_1 (F := F)) W (Proc.devRef .tc main_v41) =
      (broadcastInDim S1700000x1 ![0] bcast_S1700000_S1700000x1_0 (W (Proc.devRef .tc main_v29) : FVec F S1700000 .f32) : FVec F S1700000x1 .f32) := by
  after_results
theorem coef3_read (W : Valuation τ sig (Elt F)) :
    StableHlo.after (hostOps7_1 (F := F)) W (Proc.devRef .tc main_v50) =
      (broadcastInDim S1700000x1 ![0] bcast_S1700000_S1700000x1_0 (W (Proc.devRef .tc main_v29) : FVec F S1700000 .f32) : FVec F S1700000x1 .f32) := by
  after_results

theorem agg1_read (W : Valuation τ sig (Elt F)) :
    StableHlo.after (hostOps2 (F := F)) W (Proc.devRef .tc main_v36) =
      (Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (W (Proc.devRef .tc main_v6) : IVec S1700000 32))
        (W (Proc.devRef .tc main_v33) : FVec F S1700000x64 .f32) : FVec F S100000x64 .f32) := by
  after_results
theorem agg2_read (W : Valuation τ sig (Elt F)) :
    StableHlo.after (hostOps5 (F := F)) W (Proc.devRef .tc main_v45) =
      (Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (W (Proc.devRef .tc main_v6) : IVec S1700000 32))
        (W (Proc.devRef .tc main_v42) : FVec F S1700000x64 .f32) : FVec F S100000x64 .f32) := by
  after_results
theorem agg3_read (W : Valuation τ sig (Elt F)) :
    StableHlo.after (hostOps8 (F := F)) W (Proc.devRef .tc main_v54) =
      (Host.scatterAdd scatter_S100000x40_S1700000x1_S1700000x40_1_0_0_1
        (broadcastInDim S100000x40 ![] bcast_S_S100000x40 (constant S_ .f32 0x00000000#32))
        (broadcastInDim S1700000x1 ![0] bcast_S1700000_S1700000x1_0 (W (Proc.devRef .tc main_v6) : IVec S1700000 32))
        (W (Proc.devRef .tc main_v51) : FVec F S1700000x40 .f32) : FVec F S100000x40 .f32) := by
  after_results

theorem biasrow1_read (W : Valuation τ sig (Elt F)) :
    StableHlo.after (hostOps2 (F := F)) W (Proc.devRef .tc main_v37) =
      (shapeCast S1x64 (W (Proc.devRef .tc main_arg3) : FVec F S64 .f32) shapeCasts_S64_S1x64 : FVec F S1x64 .f32) := by
  after_results
  rfl
theorem biasrow2_read (W : Valuation τ sig (Elt F)) :
    StableHlo.after (hostOps5 (F := F)) W (Proc.devRef .tc main_v46) =
      (shapeCast S1x64 (W (Proc.devRef .tc main_arg5) : FVec F S64 .f32) shapeCasts_S64_S1x64 : FVec F S1x64 .f32) := by
  after_results
  rfl
theorem biasrow3_read (W : Valuation τ sig (Elt F)) :
    StableHlo.after (hostOps8 (F := F)) W (Proc.devRef .tc main_v55) =
      (shapeCast S1x40 (W (Proc.devRef .tc main_arg7) : FVec F S40 .f32) shapeCasts_S40_S1x40 : FVec F S1x40 .f32) := by
  after_results
  rfl

end Cert.KernelIdeal.Hand

end
-- ==== Proof.Ideal.BiasRow.lean ====
import Idealize.ShloMosaic.Lib.Pipeline.Value
import Idealize.ShloMosaic.Lib.ValueIdx

namespace Cert.Hand.BiasRow

open Idealize.ShloMosaic Idealize.ShloMosaic.ValueIdx

variable {α : Type}

/-- A vector of length n reshaped to one row is the vector broadcast along a new leading axis of extent one. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by
    have := (i 0).isLt
    have e : (i 0).val < 1 := this
    omega
  have e2 := shapeCast_apply x h1 i (ix1 (i 1 : Fin n)) (by
    rw [Shape.rowMajor_val_two, Shape.rowMajor_val_one]
    show (i 1).val = (i 0).val * n + (i 1).val
    rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

theorem row64 (x : (⟨1, ![64]⟩ : Shape).Idx → α)
    (h1 : (⟨1, ![64]⟩ : Shape).ShapeCasts ⟨2, ![1, 64]⟩)
    (hd : (⟨1, ![64]⟩ : Shape).BroadcastsInDim ⟨2, ![1, 64]⟩ ![1]) :
    shapeCast ⟨2, ![1, 64]⟩ x h1 = broadcastInDim ⟨2, ![1, 64]⟩ ![1] hd x :=
  shapeCast_row_eq_broadcastInDim x h1 hd

theorem row40 (x : (⟨1, ![40]⟩ : Shape).Idx → α)
    (h1 : (⟨1, ![40]⟩ : Shape).ShapeCasts ⟨2, ![1, 40]⟩)
    (hd : (⟨1, ![40]⟩ : Shape).BroadcastsInDim ⟨2, ![1, 40]⟩ ![1]) :
    shapeCast ⟨2, ![1, 40]⟩ x h1 = broadcastInDim ⟨2, ![1, 40]⟩ ![1] hd x :=
  shapeCast_row_eq_broadcastInDim x h1 hd

end Cert.Hand.BiasRow
-- ==== Proof.IndexRange.lean ====
import proofs.«430458_j3401614098765_3_alg».proof.Defs
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.Hand

open Cert.KernelIdeal
open Idealize.ShloMosaic Idealize.ShloMosaic.TcCoe Idealize.SL.Sem

/-- A source index lies in [-100000, 100000): wrapped once by the array's length it lies in [0, 100000). -/
def InRange (b : BitVec 32) : Prop := -100000 ≤ b.toInt ∧ b.toInt < 100000

local instance IndexRange.subsingletonScalarIdx : Subsingleton S_.Idx := ⟨fun a b => funext fun d => d.elim0⟩

theorem wrap_mask (s : BitVec 32) (h : InRange s) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  obtain ⟨h1, h2⟩ := h
  have z : (0#32 : BitVec 32).toInt = 0 := by decide
  have n : (99999#32 : BitVec 32).toInt = 99999 := by decide
  rw [IntOp.andi_eq_one, IntOp.cmpi_sge, IntOp.cmpi_sle, z, n]
  by_cases hneg : s.toInt < 0
  · have hc : IntOp.cmpi .slt s 0#32 = 1#1 := IntOp.cmpi_slt.2 (by rw [z]; exact hneg)
    have e : Scalar.select (IntOp.cmpi .slt s 0#32) (IntOp.addi s 100000#32) s = s + 100000#32 := if_pos hc
    rw [e]
    have k : (100000#32 : BitVec 32).toInt = 100000 := by decide
    have : (s + 100000#32).toInt = s.toInt + 100000 := by
      rw [BitVec.toInt_add, k]
      exact Int.bmod_eq_of_le_mul_two (by omega) (by omega)
    omega
  · have hc : ¬ IntOp.cmpi .slt s 0#32 = 1#1 := fun hh => hneg (by have := IntOp.cmpi_slt.1 hh; rwa [z] at this)
    have e : Scalar.select (IntOp.cmpi .slt s 0#32) (IntOp.addi s 100000#32) s = s := if_neg hc
    rw [e]; omega

theorem select_of_all_one {s : Shape} {α : Type} (c : IVec s 1) (a b : s.Idx → α) (hc : ∀ i, c i = 1#1) :
    select c a b = a := by
  funext i
  exact if_pos (hc i)

theorem bcast_all_one {s t : Shape} (dims : Fin s.rank → Fin t.rank) (h : s.BroadcastsInDim t dims) (c : IVec s 1)
    (hc : ∀ j, c j = 1#1) (i : t.Idx) : broadcastInDim t dims h c i = 1#1 := hc _

theorem foldl_andi_one {ι : Type} (f : ι → BitVec 1) :
    ∀ (l : List ι), (∀ n ∈ l, f n = 1#1) → l.foldl (fun r n => IntOp.andi r (f n)) 1#1 = 1#1
  | [], _ => rfl
  | a :: l, h => by
    have ha : f a = 1#1 := h a List.mem_cons_self
    have e : IntOp.andi (1#1) (f a) = 1#1 := by rw [ha]; decide
    rw [List.foldl_cons, e]
    exact foldl_andi_one f l (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

variable [Cert.KernelIdeal.Facts]
open Cert.KernelIdeal.Facts₀ Cert.KernelIdeal.Facts

theorem concat_range (a : IVec S1600000 32) (ha : ∀ j, InRange (a j)) (j : S1700000.Idx) :
    InRange (concatenate S1700000 0 [⟨S1600000, a⟩, ⟨S100000, iotaInDim S100000 32 0⟩] concatenates_S1600000_S100000_S1700000_d0 j) := by
  have hj : (j 0).val < 1700000 := (j 0).isLt
  by_cases hlt : (j 0).val < 1600000
  · rw [concatenate_pair_apply_left (0 : Fin S1700000.rank) a (iotaInDim S100000 32 0) concatenates_S1600000_S100000_S1700000_d0 j rfl
      (ValueIdx.ix1 ⟨(j 0).val, hlt⟩) (fun b => by have hb : b = 0 := Subsingleton.elim _ _; subst hb; rfl)]
    exact ha _
  · have hlt' : (j 0).val - 1600000 < 100000 := by omega
    rw [concatenate_pair_apply_right (0 : Fin S1700000.rank) a (iotaInDim S100000 32 0) concatenates_S1600000_S100000_S1700000_d0 j rfl rfl
      (ValueIdx.ix1 ⟨(j 0).val - 1600000, hlt'⟩) (fun b hb => absurd (Subsingleton.elim _ _) hb)
      (by show (j 0).val - 1600000 + 1600000 = (j 0).val; omega)]
    show InRange (BitVec.ofNat 32 ((j 0).val - 1600000))
    unfold InRange
    rw [StableHlo.Predicate.toInt_ofNat_small _ (by omega)]
    omega

theorem take_mask_one (idx : IVec S1700000 32) (hidx : ∀ j, InRange (idx j)) (j : S1700000.Idx) :
    Host.reduce IntOp.andi
      (andi
        (cmpi .sge
          (broadcastInDim S1700000x1 ![0] bcast_S1700000_S1700000x1_0
            (select (cmpi .slt idx (broadcastInDim S1700000 ![] bcast_S_S1700000 (constantI S_ 32 0#32)))
              (addi idx (broadcastInDim S1700000 ![] bcast_S_S1700000 (constantI S_ 32 100000#32))) idx))
          (broadcastInDim S1700000x1 ![] bcast_S_S1700000x1 (constantI S_ 32 0#32)))
        (cmpi .sle
          (broadcastInDim S1700000x1 ![0] bcast_S1700000_S1700000x1_0
            (select (cmpi .slt idx (broadcastInDim S1700000 ![] bcast_S_S1700000 (constantI S_ 32 0#32)))
              (addi idx (broadcastInDim S1700000 ![] bcast_S_S1700000 (constantI S_ 32 100000#32))) idx))
          (broadcastInDim S1700000x1 ![0, 1] bcast_S1x1_S1700000x1_0_1
            (broadcastInDim S1x1 ![1] bcast_S1_S1x1_1 (constantI S1 32 99999#32)))))
      (constantI S_ 1 1#1) reducesTo_S1700000x1_S1700000_d1 h_S_ j = 1#1 := by
  refine reduce_andi_of_all _ _ _ _ rfl (fun k => ?_) j
  exact wrap_mask _ (hidx _)

/-- With every index in range no row is replaced by the fill value: the masked take is the plain gather. -/
theorem take_select_eq_gather_64 {α : Type} (idx : IVec S1700000 32) (hidx : ∀ j, InRange (idx j))
    (x : S100000x64.Idx → α) (fill : S1700000x64.Idx → α) :
    select
      (broadcastInDim S1700000x64 ![0] bcast_S1700000_S1700000x64_0
        (Host.reduce IntOp.andi
          (andi
            (cmpi .sge
              (broadcastInDim S1700000x1 ![0] bcast_S1700000_S1700000x1_0
                (select (cmpi .slt idx (broadcastInDim S1700000 ![] bcast_S_S1700000 (constantI S_ 32 0#32)))
                  (addi idx (broadcastInDim S1700000 ![] bcast_S_S1700000 (constantI S_ 32 100000#32))) idx))
              (broadcastInDim S1700000x1 ![] bcast_S_S1700000x1 (constantI S_ 32 0#32)))
            (cmpi .sle
              (broadcastInDim S1700000x1 ![0] bcast_S1700000_S1700000x1_0
                (select (cmpi .slt idx (broadcastInDim S1700000 ![] bcast_S_S1700000 (constantI S_ 32 0#32)))
                  (addi idx (broadcastInDim S1700000 ![] bcast_S_S1700000 (constantI S_ 32 100000#32))) idx))
              (broadcastInDim S1700000x1 ![0, 1] bcast_S1x1_S1700000x1_0_1
                (broadcastInDim S1x1 ![1] bcast_S1_S1x1_1 (constantI S1 32 99999#32)))))
          (constantI S_ 1 1#1) reducesTo_S1700000x1_S1700000_d1 h_S_))
      (Host.gather gather_S100000x64_S1700000x1_S1700000x64_1_0_n_n_0_1_164 x
        (broadcastInDim S1700000x1 ![0] bcast_S1700000_S1700000x1_0
          (select (cmpi .slt idx (broadcastInDim S1700000 ![] bcast_S_S1700000 (constantI S_ 32 0#32)))
            (addi idx (broadcastInDim S1700000 ![] bcast_S_S1700000 (constantI S_ 32 100000#32))) idx)))
      fill
    = Host.gather gather_S100000x64_S1700000x1_S1700000x64_1_0_n_n_0_1_164 x
        (broadcastInDim S1700000x1 ![0] bcast_S1700000_S1700000x1_0
          (select (cmpi .slt idx (broadcastInDim S1700000 ![] bcast_S_S1700000 (constantI S_ 32 0#32)))
            (addi idx (broadcastInDim S1700000 ![] bcast_S_S1700000 (constantI S_ 32 100000#32))) idx)) := by
  exact select_of_all_one _ _ _ (bcast_all_one _ _ _ (take_mask_one idx hidx))

theorem take_select_eq_gather_40 {α : Type} (idx : IVec S1700000 32) (hidx : ∀ j, InRange (idx j))
    (x : S100000x40.Idx → α) (fill : S1700000x40.Idx → α) :
    select
      (broadcastInDim S1700000x40 ![0] bcast_S1700000_S1700000x40_0
        (Host.reduce IntOp.andi
          (andi
            (cmpi .sge
              (broadcastInDim S1700000x1 ![0] bcast_S1700000_S1700000x1_0
                (select (cmpi .slt idx (broadcastInDim S1700000 ![] bcast_S_S1700000 (constantI S_ 32 0#32)))
                  (addi idx (broadcastInDim S1700000 ![] bcast_S_S1700000 (constantI S_ 32 100000#32))) idx))
              (broadcastInDim S1700000x1 ![] bcast_S_S1700000x1 (constantI S_ 32 0#32)))
            (cmpi .sle
              (broadcastInDim S1700000x1 ![0] bcast_S1700000_S1700000x1_0
                (select (cmpi .slt idx (broadcastInDim S1700000 ![] bcast_S_S1700000 (constantI S_ 32 0#32)))
                  (addi idx (broadcastInDim S1700000 ![] bcast_S_S1700000 (constantI S_ 32 100000#32))) idx))
              (broadcastInDim S1700000x1 ![0, 1] bcast_S1x1_S1700000x1_0_1
                (broadcastInDim S1x1 ![1] bcast_S1_S1x1_1 (constantI S1 32 99999#32)))))
          (constantI S_ 1 1#1) reducesTo_S1700000x1_S1700000_d1 h_S_))
      (Host.gather gather_S100000x40_S1700000x1_S1700000x40_1_0_n_n_0_1_140 x
        (broadcastInDim S1700000x1 ![0] bcast_S1700000_S1700000x1_0
          (select (cmpi .slt idx (broadcastInDim S1700000 ![] bcast_S_S1700000 (constantI S_ 32 0#32)))
            (addi idx (broadcastInDim S1700000 ![] bcast_S_S1700000 (constantI S_ 32 100000#32))) idx)))
      fill
    = Host.gather gather_S100000x40_S1700000x1_S1700000x40_1_0_n_n_0_1_140 x
        (broadcastInDim S1700000x1 ![0] bcast_S1700000_S1700000x1_0
          (select (cmpi .slt idx (broadcastInDim S1700000 ![] bcast_S_S1700000 (constantI S_ 32 0#32)))
            (addi idx (broadcastInDim S1700000 ![] bcast_S_S1700000 (constantI S_ 32 100000#32))) idx)) := by
  exact select_of_all_one _ _ _ (bcast_all_one _ _ _ (take_mask_one idx hidx))

variable [Cert.Pre_finite_inputs.Facts]

theorem src_range_of_pre (m : (ℓ : Loc nD τ sig) → Buf (Elt Ideal) ℓ) (hpre : Cert.Pre_KernelIdeal m) (c : Dev nD) :
    ∀ j : S1600000.Idx, InRange ((shapeCast S1600000 (extractStridedSlice S1x1600000 ![0, 0] (m ((c.tc : Thread nD τ).loc main_arg1)) slices_S2x1600000_S1x1600000_0_0) shapeCasts_S1x1600000_S1600000) j) := by
  intro j
  have e := congrFun (hpre c) ValueIdx.ix0
  unfold Cert.Pre_finite_inputs.fn Cert.Pre_finite_inputs.fn_part1 Cert.Pre_finite_inputs.fn_part2 at e
  dsimp only at e
  obtain ⟨e', hlt⟩ := IntOp.andi_eq_one.1 (show IntOp.andi _ _ = 1#1 from e)
  obtain ⟨-, hge⟩ := IntOp.andi_eq_one.1 (show IntOp.andi _ _ = 1#1 from e')
  have hge' := Host.reduce_andi_all _ _ _ _ _ hge j
  have hlt' := Host.reduce_andi_all _ _ _ _ _ hlt j
  have h1 : (4294867296#32 : BitVec 32).toInt ≤ _ := IntOp.cmpi_sge.1 hge'
  have h2 : _ < (100000#32 : BitVec 32).toInt := IntOp.cmpi_slt.1 hlt'
  have c1 : (4294867296#32 : BitVec 32).toInt = -100000 := by decide
  have c2 : (100000#32 : BitVec 32).toInt = 100000 := by decide
  rw [c1] at h1
  rw [c2] at h2
  exact ⟨h1, h2⟩

/-- The precondition's last two conjuncts bound every source index; the appended self-loop indices are node numbers. -/
theorem idx_range_of_pre (m : (ℓ : Loc nD τ sig) → Buf (Elt Ideal) ℓ) (hpre : Cert.Pre_KernelIdeal m) (c : Dev nD) (j : S1700000.Idx) :
    InRange (concatenate S1700000 0
      [⟨S1600000, shapeCast S1600000 (extractStridedSlice S1x1600000 ![0, 0] (m ((c.tc : Thread nD τ).loc main_arg1)) slices_S2x1600000_S1x1600000_0_0) shapeCasts_S1x1600000_S1600000⟩,
       ⟨S100000, iotaInDim S100000 32 0⟩] concatenates_S1600000_S100000_S1700000_d0 j) :=
  concat_range _ (src_range_of_pre m hpre c) j

end Cert.KernelIdeal.Hand
end
-- ==== Proof.Ideal.ResultCore.lean ====
import proofs.«430458_j3401614098765_3_alg».proof.Proof.Ideal.Vals
import proofs.«430458_j3401614098765_3_alg».proof.Proof.Ideal.HostReads
import proofs.«430458_j3401614098765_3_alg».proof.Proof.Ideal.BiasRow
import proofs.«430458_j3401614098765_3_alg».proof.Proof.IndexRange
import proofs.«430458_j3401614098765_3_alg».proof.Proof.RefRead

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (c : Dev nD)

theorem W5_of (r : Ref sig .tc) (h : r ∉ hostOps1_W) : W5 m c r = W4 m c r :=
  StableHlo.after_of_writes_sub hostOps1 _ hostOps1_writes h
theorem W6_of (r : Ref sig .tc) (h : r ∉ hostOps1_1_W) : W6 m c r = W5 m c r :=
  StableHlo.after_of_writes_sub hostOps1_1 _ hostOps1_1_writes h
theorem W8_of (r : Ref sig .tc) (h : r ∉ hostOps2_W) : W8 m c r = W7 m c r :=
  StableHlo.after_of_writes_sub hostOps2 _ hostOps2_writes h
theorem W11_of (r : Ref sig .tc) (h : r ∉ hostOps4_W) : W11 m c r = W10 m c r :=
  StableHlo.after_of_writes_sub hostOps4 _ hostOps4_writes h
theorem W12_of (r : Ref sig .tc) (h : r ∉ hostOps4_1_W) : W12 m c r = W11 m c r :=
  StableHlo.after_of_writes_sub hostOps4_1 _ hostOps4_1_writes h
theorem W14_of (r : Ref sig .tc) (h : r ∉ hostOps5_W) : W14 m c r = W13 m c r :=
  StableHlo.after_of_writes_sub hostOps5 _ hostOps5_writes h
theorem W17_of (r : Ref sig .tc) (h : r ∉ hostOps7_W) : W17 m c r = W16 m c r :=
  StableHlo.after_of_writes_sub hostOps7 _ hostOps7_writes h
theorem W18_of (r : Ref sig .tc) (h : r ∉ hostOps7_1_W) : W18 m c r = W17 m c r :=
  StableHlo.after_of_writes_sub hostOps7_1 _ hostOps7_1_writes h
theorem W20_of (r : Ref sig .tc) (h : r ∉ hostOps8_W) : W20 m c r = W19 m c r :=
  StableHlo.after_of_writes_sub hostOps8 _ hostOps8_writes h

abbrev early : List (Ref sig .tc) := [main_v3, main_v6, main_v29, main_arg0, main_arg1, main_arg2, main_arg3, main_arg4, main_arg5, main_arg6, main_arg7]

theorem early_free : ∀ r ∈ early, r ∉ ([main_v30] : List (Ref sig .tc)) ∧ r ∉ hostOps1_W ∧ r ∉ hostOps1_1_W ∧ r ∉ ([main_v33] : List (Ref sig .tc)) ∧ r ∉ hostOps2_W ∧ r ∉ ([main_v38] : List (Ref sig .tc)) ∧ r ∉ ([main_v39] : List (Ref sig .tc)) ∧ r ∉ hostOps4_W ∧ r ∉ hostOps4_1_W ∧ r ∉ ([main_v42] : List (Ref sig .tc)) ∧ r ∉ hostOps5_W ∧ r ∉ ([main_v47] : List (Ref sig .tc)) ∧ r ∉ ([main_v48] : List (Ref sig .tc)) ∧ r ∉ hostOps7_W ∧ r ∉ hostOps7_1_W ∧ r ∉ ([main_v51] : List (Ref sig .tc)) ∧ r ∉ hostOps8_W := by decide

/-- The index vectors, the edge coefficients and the arguments are written by no region and no later host operation. -/
theorem W4_early (r : Ref sig .tc) (hr : r ∈ early) : W4 m c r = V3 m c r := W4_of m c r (List.ne_of_not_mem_cons (early_free r hr).1)
theorem W5_early (r : Ref sig .tc) (hr : r ∈ early) : W5 m c r = V3 m c r := (W5_of m c r (early_free r hr).2.1).trans (W4_early m c r hr)
theorem W6_early (r : Ref sig .tc) (hr : r ∈ early) : W6 m c r = V3 m c r := (W6_of m c r (early_free r hr).2.2.1).trans (W5_early m c r hr)
theorem W7_early (r : Ref sig .tc) (hr : r ∈ early) : W7 m c r = V3 m c r := (W7_of m c r (List.ne_of_not_mem_cons (early_free r hr).2.2.2.1)).trans (W6_early m c r hr)
theorem W8_early (r : Ref sig .tc) (hr : r ∈ early) : W8 m c r = V3 m c r := (W8_of m c r (early_free r hr).2.2.2.2.1).trans (W7_early m c r hr)
theorem W9_early (r : Ref sig .tc) (hr : r ∈ early) : W9 m c r = V3 m c r := (W9_of m c r (List.ne_of_not_mem_cons (early_free r hr).2.2.2.2.2.1)).trans (W8_early m c r hr)
theorem W10_early (r : Ref sig .tc) (hr : r ∈ early) : W10 m c r = V3 m c r := (W10_of m c r (List.ne_of_not_mem_cons (early_free r hr).2.2.2.2.2.2.1)).trans (W9_early m c r hr)
theorem W11_early (r : Ref sig .tc) (hr : r ∈ early) : W11 m c r = V3 m c r := (W11_of m c r (early_free r hr).2.2.2.2.2.2.2.1).trans (W10_early m c r hr)
theorem W12_early (r : Ref sig .tc) (hr : r ∈ early) : W12 m c r = V3 m c r := (W12_of m c r (early_free r hr).2.2.2.2.2.2.2.2.1).trans (W11_early m c r hr)
theorem W13_early (r : Ref sig .tc) (hr : r ∈ early) : W13 m c r = V3 m c r := (W13_of m c r (List.ne_of_not_mem_cons (early_free r hr).2.2.2.2.2.2.2.2.2.1)).trans (W12_early m c r hr)
theorem W14_early (r : Ref sig .tc) (hr : r ∈ early) : W14 m c r = V3 m c r := (W14_of m c r (early_free r hr).2.2.2.2.2.2.2.2.2.2.1).trans (W13_early m c r hr)
theorem W15_early (r : Ref sig .tc) (hr : r ∈ early) : W15 m c r = V3 m c r := (W15_of m c r (List.ne_of_not_mem_cons (early_free r hr).2.2.2.2.2.2.2.2.2.2.2.1)).trans (W14_early m c r hr)
theorem W16_early (r : Ref sig .tc) (hr : r ∈ early) : W16 m c r = V3 m c r := (W16_of m c r (List.ne_of_not_mem_cons (early_free r hr).2.2.2.2.2.2.2.2.2.2.2.2.1)).trans (W15_early m c r hr)
theorem W17_early (r : Ref sig .tc) (hr : r ∈ early) : W17 m c r = V3 m c r := (W17_of m c r (early_free r hr).2.2.2.2.2.2.2.2.2.2.2.2.2.1).trans (W16_early m c r hr)
theorem W18_early (r : Ref sig .tc) (hr : r ∈ early) : W18 m c r = V3 m c r := (W18_of m c r (early_free r hr).2.2.2.2.2.2.2.2.2.2.2.2.2.2.1).trans (W17_early m c r hr)
theorem W19_early (r : Ref sig .tc) (hr : r ∈ early) : W19 m c r = V3 m c r := (W19_of m c r (List.ne_of_not_mem_cons (early_free r hr).2.2.2.2.2.2.2.2.2.2.2.2.2.2.2.1)).trans (W18_early m c r hr)
theorem W20_early (r : Ref sig .tc) (hr : r ∈ early) : W20 m c r = V3 m c r := (W20_of m c r (early_free r hr).2.2.2.2.2.2.2.2.2.2.2.2.2.2.2.2).trans (W19_early m c r hr)

abbrev a0 : FVec Ideal Cert.ReferenceIdeal.S100000x64 .f32 := m ((c.tc : Thread nD τ).loc main_arg0)
abbrev a1 : IVec Cert.ReferenceIdeal.S2x1600000 32 := m ((c.tc : Thread nD τ).loc main_arg1)
abbrev a2 : FVec Ideal Cert.ReferenceIdeal.S64x64 .f32 := m ((c.tc : Thread nD τ).loc main_arg2)
abbrev a3 : FVec Ideal Cert.ReferenceIdeal.S64 .f32 := m ((c.tc : Thread nD τ).loc main_arg3)
abbrev a4 : FVec Ideal Cert.ReferenceIdeal.S64x64 .f32 := m ((c.tc : Thread nD τ).loc main_arg4)
abbrev a5 : FVec Ideal Cert.ReferenceIdeal.S64 .f32 := m ((c.tc : Thread nD τ).loc main_arg5)
abbrev a6 : FVec Ideal Cert.ReferenceIdeal.S64x40 .f32 := m ((c.tc : Thread nD τ).loc main_arg6)
abbrev a7 : FVec Ideal Cert.ReferenceIdeal.S40 .f32 := m ((c.tc : Thread nD τ).loc main_arg7)

theorem V3_arg (r : Ref sig .tc) (h1 : r ∉ hostOps0_W) (h2 : r ∉ hostOps0_1_W) (h3 : r ∉ hostOps0_2_W) :
    V3 m c r = m ((c.tc : Thread nD τ).loc r) :=
  (V3_of m c r h3).trans ((V2_of m c r h2).trans (V1_of m c r h1))

section First
variable {F : FTy → Type} [FloatOps F] (W0 : Valuation τ sig (Elt F))

theorem ofBuf_cst_2 (h1 h2 h3) (v : FVec F S_ .f32) : (StableHlo.TRef.of (T := ⟨S_, .f32⟩) main_cst_2 h1 h2 h3).ofBuf (Val := Elt F) v = v := rfl
theorem ofBuf_v12 (h1 h2 h3) (v : IVec S100000 1) : (StableHlo.TRef.of (T := ⟨S100000, .i1⟩) main_v12 h1 h2 h3).ofBuf (Val := Elt F) v = v := rfl
theorem ofBuf_v13 (h1 h2 h3) (v : FVec F S100000 .f32) : (StableHlo.TRef.of (T := ⟨S100000, .f32⟩) main_v13 h1 h2 h3).ofBuf (Val := Elt F) v = v := rfl
theorem toBuf_v14 (h1 h2 h3) (v : FVec F S100000 .f32) : (StableHlo.TRef.of (T := ⟨S100000, .f32⟩) main_v14 h1 h2 h3).toBuf (Val := Elt F) v = v := rfl

theorem first_v3 : StableHlo.after (hostOps0 (F := F)) W0 (Proc.devRef .tc main_v3) = val_main_v3 (F := F) (W0 (Proc.devRef .tc main_arg1)) :=
  (src_read W0).trans rfl

theorem first_v6 : StableHlo.after (hostOps0 (F := F)) W0 (Proc.devRef .tc main_v6) = val_main_v6 (F := F) (W0 (Proc.devRef .tc main_arg1)) := by
  refine Eq.trans (b := ?_) ?_ ?_
  rotate_left
  · after_results_simp
    exact rfl
  · rfl

set_option maxHeartbeats 4000000 in
theorem first_v29 : StableHlo.after (hostOps0_2 (F := F)) (StableHlo.after hostOps0_1 (StableHlo.after hostOps0 W0)) (Proc.devRef .tc main_v29)
    = val_main_v29 (F := F) (W0 (Proc.devRef .tc main_arg1)) := by
  refine Eq.trans (b := ?_) ?_ ?_
  rotate_left
  · after_results_simp
    exact rfl
  · simp only [ofBuf_toBuf', ofBuf_cst_2, ofBuf_v12, ofBuf_v13, toBuf_v14]
    rfl

end First

theorem V3_v3 : V3 m c main_v3 = val_main_v3 (F := Ideal) (a1 m c) :=
  (V3_of m c main_v3 (by decide)).trans ((V2_of m c main_v3 (by decide)).trans (first_v3 (V0 m c)))
theorem V3_v6 : V3 m c main_v6 = val_main_v6 (F := Ideal) (a1 m c) :=
  (V3_of m c main_v6 (by decide)).trans ((V2_of m c main_v6 (by decide)).trans (first_v6 (V0 m c)))
theorem V3_v29 : V3 m c main_v29 = val_main_v29 (F := Ideal) (a1 m c) := first_v29 (V0 m c)

theorem V3_v3_range [Cert.Pre_finite_inputs.Facts] (hpre : Cert.Pre_KernelIdeal m) (j : S1700000.Idx) :
    InRange ((V3 m c main_v3 : IVec S1700000 32) j) := by
  have e := (V3_of m c main_v3 (by decide)).trans ((V2_of m c main_v3 (by decide)).trans (src_read (V0 m c)))
  rw [e]
  exact idx_range_of_pre m hpre c j

theorem L1_dense (hd0 : ∀ (V : (c : Dev nD) → (b : Ref sig .tc) → Buf (Elt Ideal) ((c : Thread nD τ).loc b)) (c : Dev nD), (dat0 (F := Ideal) V c).arrAt 2 cfg0.N = Host.dotGeneral (F := Ideal) (φ₁ := .f32) (φ₂ := .f32) Cert.ReferenceIdeal.dot_S100000x64_S64x64_S100000x64_1_0_0_1_n_n none (V c main_arg0) (V c main_arg2)) :
    W4 m c main_v30 = val_main_v30 (F := Ideal) (a0 m c) (a2 m c) := by
  rw [W4_out m c, hd0 (rd (V3 m)) c]
  dsimp only [rd]
  rw [V3_arg m c main_arg0 (by decide) (by decide) (by decide), V3_arg m c main_arg2 (by decide) (by decide) (by decide)]
  rfl

/-- Every source index is in range, so the gather with a fill value is the plain gather. -/
theorem L1_take [Cert.Pre_finite_inputs.Facts] (hpre : Cert.Pre_KernelIdeal m) (hd : W4 m c main_v30 = val_main_v30 (F := Ideal) (a0 m c) (a2 m c)) :
    W5 m c main_v31 = val_main_v37 (F := Ideal) (a0 m c) (a1 m c) (a2 m c) := by
  have hidx : ∀ j, InRange ((W4 m c main_v3 : IVec S1700000 32) j) := fun j => by
    rw [W4_early m c main_v3 (by decide)]; exact V3_v3_range m c hpre j
  show StableHlo.after hostOps1 (W4 m c) (Proc.devRef .tc main_v31) = _
  rw [take1_read, take_select_eq_gather_64 (W4 m c main_v3) hidx, hd, W4_early m c main_v3 (by decide), V3_v3 m c]
  rfl

theorem L1_coef : W6 m c main_v32 = val_main_v38 (F := Ideal) (a1 m c) := by
  show StableHlo.after hostOps1_1 (W5 m c) (Proc.devRef .tc main_v32) = _
  rw [coef1_read, W5_early m c main_v29 (by decide), V3_v29 m c]
  rfl

theorem L1_scale (hs1 : ∀ (V : (c : Dev nD) → (b : Ref sig .tc) → Buf (Elt Ideal) ((c : Thread nD τ).loc b)) (c : Dev nD) (hb : Cert.ReferenceIdeal.S1700000x1.BroadcastsInDim Cert.ReferenceIdeal.S1700000x64 ![0, 1]), (dat1 (F := Ideal) V c).arrAt 2 cfg1.N = (mulf (V c main_v31 : FVec Ideal Cert.ReferenceIdeal.S1700000x64 .f32) (broadcastInDim Cert.ReferenceIdeal.S1700000x64 ![0, 1] hb (V c main_v32 : FVec Ideal Cert.ReferenceIdeal.S1700000x1 .f32)) : FVec Ideal Cert.ReferenceIdeal.S1700000x64 .f32))
    (ht : W5 m c main_v31 = val_main_v37 (F := Ideal) (a0 m c) (a1 m c) (a2 m c)) (hc : W6 m c main_v32 = val_main_v38 (F := Ideal) (a1 m c)) :
    W7 m c main_v33 = val_main_v40 (F := Ideal) (a0 m c) (a1 m c) (a2 m c) := by
  rw [W7_out m c, hs1 (rd (W6 m)) c (by decide)]
  dsimp only [rd]
  rw [W6_of m c main_v31 (by decide), ht, hc]
  rfl

theorem L1_agg (hsc : W7 m c main_v33 = val_main_v40 (F := Ideal) (a0 m c) (a1 m c) (a2 m c)) :
    W8 m c main_v36 = val_main_v43 (F := Ideal) (a0 m c) (a1 m c) (a2 m c) := by
  show StableHlo.after hostOps2 (W7 m c) (Proc.devRef .tc main_v36) = _
  rw [agg1_read, W7_early m c main_v6 (by decide), V3_v6 m c, hsc]
  rfl

/-- The bias reshaped to one row is the bias broadcast to one row. -/
theorem L1_row : W8 m c main_v37 = val_main_v44 (F := Ideal) (a3 m c) := by
  show StableHlo.after hostOps2 (W7 m c) (Proc.devRef .tc main_v37) = _
  rw [biasrow1_read, W7_early m c main_arg3 (by decide), V3_arg m c main_arg3 (by decide) (by decide) (by decide)]
  exact Cert.Hand.BiasRow.row64 _ _ _

theorem L1_out (hb2 : ∀ (V : (c : Dev nD) → (b : Ref sig .tc) → Buf (Elt Ideal) ((c : Thread nD τ).loc b)) (c : Dev nD) (hb : Cert.ReferenceIdeal.S1x64.BroadcastsInDim Cert.ReferenceIdeal.S100000x64 ![0, 1]) (hs : Cert.ReferenceIdeal.S_.BroadcastsInDim Cert.ReferenceIdeal.S100000x64 ![]), (dat2 (F := Ideal) V c).arrAt 2 cfg2.N = (maximumf (addf (V c main_v36 : FVec Ideal Cert.ReferenceIdeal.S100000x64 .f32) (broadcastInDim Cert.ReferenceIdeal.S100000x64 ![0, 1] hb (V c main_v37 : FVec Ideal Cert.ReferenceIdeal.S1x64 .f32))) (broadcastInDim Cert.ReferenceIdeal.S100000x64 ![] hs (constant (F := Ideal) Cert.ReferenceIdeal.S_ .f32 0x00000000#32)) : FVec Ideal Cert.ReferenceIdeal.S100000x64 .f32))
    (hag : W8 m c main_v36 = val_main_v43 (F := Ideal) (a0 m c) (a1 m c) (a2 m c)) (hrow : W8 m c main_v37 = val_main_v44 (F := Ideal) (a3 m c)) :
    W9 m c main_v38 = val_main_v47 (F := Ideal) (a0 m c) (a1 m c) (a2 m c) (a3 m c) := by
  rw [W9_out m c, hb2 (rd (W8 m)) c (by decide) (by decide)]
  dsimp only [rd]
  rw [hag, hrow]
  rfl

theorem L2_dense (hd3 : ∀ (V : (c : Dev nD) → (b : Ref sig .tc) → Buf (Elt Ideal) ((c : Thread nD τ).loc b)) (c : Dev nD), (dat3 (F := Ideal) V c).arrAt 2 cfg3.N = Host.dotGeneral (F := Ideal) (φ₁ := .f32) (φ₂ := .f32) Cert.ReferenceIdeal.dot_S100000x64_S64x64_S100000x64_1_0_0_1_n_n none (V c main_v38) (V c main_arg4)) (hprev : W9 m c main_v38 = val_main_v47 (F := Ideal) (a0 m c) (a1 m c) (a2 m c) (a3 m c)) :
    W10 m c main_v39 = val_main_v48 (F := Ideal) (a0 m c) (a1 m c) (a2 m c) (a3 m c) (a4 m c) := by
  rw [W10_out m c, hd3 (rd (W9 m)) c]
  dsimp only [rd]
  rw [hprev, W9_early m c main_arg4 (by decide), V3_arg m c main_arg4 (by decide) (by decide) (by decide)]
  rfl

theorem L2_take [Cert.Pre_finite_inputs.Facts] (hpre : Cert.Pre_KernelIdeal m) (hd : W10 m c main_v39 = val_main_v48 (F := Ideal) (a0 m c) (a1 m c) (a2 m c) (a3 m c) (a4 m c)) :
    W11 m c main_v40 = val_main_v55 (F := Ideal) (a0 m c) (a1 m c) (a2 m c) (a3 m c) (a4 m c) := by
  have hidx : ∀ j, InRange ((W10 m c main_v3 : IVec S1700000 32) j) := fun j => by
    rw [W10_early m c main_v3 (by decide)]; exact V3_v3_range m c hpre j
  show StableHlo.after hostOps4 (W10 m c) (Proc.devRef .tc main_v40) = _
  rw [take2_read, take_select_eq_gather_64 (W10 m c main_v3) hidx, hd, W10_early m c main_v3 (by decide), V3_v3 m c]
  rfl

theorem L2_coef : W12 m c main_v41 = val_main_v56 (F := Ideal) (a1 m c) := by
  show StableHlo.after hostOps4_1 (W11 m c) (Proc.devRef .tc main_v41) = _
  rw [coef2_read, W11_early m c main_v29 (by decide), V3_v29 m c]
  rfl

theorem L2_scale (hs4 : ∀ (V : (c : Dev nD) → (b : Ref sig .tc) → Buf (Elt Ideal) ((c : Thread nD τ).loc b)) (c : Dev nD) (hb : Cert.ReferenceIdeal.S1700000x1.BroadcastsInDim Cert.ReferenceIdeal.S1700000x64 ![0, 1]), (dat4 (F := Ideal) V c).arrAt 2 cfg4.N = (mulf (V c main_v40 : FVec Ideal Cert.ReferenceIdeal.S1700000x64 .f32) (broadcastInDim Cert.ReferenceIdeal.S1700000x64 ![0, 1] hb (V c main_v41 : FVec Ideal Cert.ReferenceIdeal.S1700000x1 .f32)) : FVec Ideal Cert.ReferenceIdeal.S1700000x64 .f32))
    (ht : W11 m c main_v40 = val_main_v55 (F := Ideal) (a0 m c) (a1 m c) (a2 m c) (a3 m c) (a4 m c)) (hc : W12 m c main_v41 = val_main_v56 (F := Ideal) (a1 m c)) :
    W13 m c main_v42 = val_main_v58 (F := Ideal) (a0 m c) (a1 m c) (a2 m c) (a3 m c) (a4 m c) := by
  rw [W13_out m c, hs4 (rd (W12 m)) c (by decide)]
  dsimp only [rd]
  rw [W12_of m c main_v40 (by decide), ht, hc]
  rfl

theorem L2_agg (hsc : W13 m c main_v42 = val_main_v58 (F := Ideal) (a0 m c) (a1 m c) (a2 m c) (a3 m c) (a4 m c)) :
    W14 m c main_v45 = val_main_v61 (F := Ideal) (a0 m c) (a1 m c) (a2 m c) (a3 m c) (a4 m c) := by
  show StableHlo.after hostOps5 (W13 m c) (Proc.devRef .tc main_v45) = _
  rw [agg2_read, W13_early m c main_v6 (by decide), V3_v6 m c, hsc]
  rfl

theorem L2_row : W14 m c main_v46 = val_main_v62 (F := Ideal) (a5 m c) := by
  show StableHlo.after hostOps5 (W13 m c) (Proc.devRef .tc main_v46) = _
  rw [biasrow2_read, W13_early m c main_arg5 (by decide), V3_arg m c main_arg5 (by decide) (by decide) (by decide)]
  exact Cert.Hand.BiasRow.row64 _ _ _

theorem L2_out (hb5 : ∀ (V : (c : Dev nD) → (b : Ref sig .tc) → Buf (Elt Ideal) ((c : Thread nD τ).loc b)) (c : Dev nD) (hb : Cert.ReferenceIdeal.S1x64.BroadcastsInDim Cert.ReferenceIdeal.S100000x64 ![0, 1]) (hs : Cert.ReferenceIdeal.S_.BroadcastsInDim Cert.ReferenceIdeal.S100000x64 ![]), (dat5 (F := Ideal) V c).arrAt 2 cfg5.N = (maximumf (addf (V c main_v45 : FVec Ideal Cert.ReferenceIdeal.S100000x64 .f32) (broadcastInDim Cert.ReferenceIdeal.S100000x64 ![0, 1] hb (V c main_v46 : FVec Ideal Cert.ReferenceIdeal.S1x64 .f32))) (broadcastInDim Cert.ReferenceIdeal.S100000x64 ![] hs (constant (F := Ideal) Cert.ReferenceIdeal.S_ .f32 0x00000000#32)) : FVec Ideal Cert.ReferenceIdeal.S100000x64 .f32))
    (hag : W14 m c main_v45 = val_main_v61 (F := Ideal) (a0 m c) (a1 m c) (a2 m c) (a3 m c) (a4 m c)) (hrow : W14 m c main_v46 = val_main_v62 (F := Ideal) (a5 m c)) :
    W15 m c main_v47 = val_main_v65 (F := Ideal) (a0 m c) (a1 m c) (a2 m c) (a3 m c) (a4 m c) (a5 m c) := by
  rw [W15_out m c, hb5 (rd (W14 m)) c (by decide) (by decide)]
  dsimp only [rd]
  rw [hag, hrow]
  rfl

theorem L3_dense (hd6 : ∀ (V : (c : Dev nD) → (b : Ref sig .tc) → Buf (Elt Ideal) ((c : Thread nD τ).loc b)) (c : Dev nD), (dat6 (F := Ideal) V c).arrAt 2 cfg6.N = Host.dotGeneral (F := Ideal) (φ₁ := .f32) (φ₂ := .f32) Cert.ReferenceIdeal.dot_S100000x64_S64x40_S100000x40_1_0_0_1_n_n none (V c main_v47) (V c main_arg6)) (hprev : W15 m c main_v47 = val_main_v65 (F := Ideal) (a0 m c) (a1 m c) (a2 m c) (a3 m c) (a4 m c) (a5 m c)) :
    W16 m c main_v48 = val_main_v66 (F := Ideal) (a0 m c) (a1 m c) (a2 m c) (a3 m c) (a4 m c) (a5 m c) (a6 m c) := by
  rw [W16_out m c, hd6 (rd (W15 m)) c]
  dsimp only [rd]
  rw [hprev, W15_early m c main_arg6 (by decide), V3_arg m c main_arg6 (by decide) (by decide) (by decide)]
  rfl

theorem L3_take [Cert.Pre_finite_inputs.Facts] (hpre : Cert.Pre_KernelIdeal m) (hd : W16 m c main_v48 = val_main_v66 (F := Ideal) (a0 m c) (a1 m c) (a2 m c) (a3 m c) (a4 m c) (a5 m c) (a6 m c)) :
    W17 m c main_v49 = val_main_v73 (F := Ideal) (a0 m c) (a1 m c) (a2 m c) (a3 m c) (a4 m c) (a5 m c) (a6 m c) := by
  have hidx : ∀ j, InRange ((W16 m c main_v3 : IVec S1700000 32) j) := fun j => by
    rw [W16_early m c main_v3 (by decide)]; exact V3_v3_range m c hpre j
  show StableHlo.after hostOps7 (W16 m c) (Proc.devRef .tc main_v49) = _
  rw [take3_read, take_select_eq_gather_40 (W16 m c main_v3) hidx, hd, W16_early m c main_v3 (by decide), V3_v3 m c]
  rfl

theorem L3_coef : W18 m c main_v50 = val_main_v74 (F := Ideal) (a1 m c) := by
  show StableHlo.after hostOps7_1 (W17 m c) (Proc.devRef .tc main_v50) = _
  rw [coef3_read, W17_early m c main_v29 (by decide), V3_v29 m c]
  rfl

theorem L3_scale (hs7 : ∀ (V : (c : Dev nD) → (b : Ref sig .tc) → Buf (Elt Ideal) ((c : Thread nD τ).loc b)) (c : Dev nD) (hb : Cert.ReferenceIdeal.S1700000x1.BroadcastsInDim Cert.ReferenceIdeal.S1700000x40 ![0, 1]), (dat7 (F := Ideal) V c).arrAt 2 cfg7.N = (mulf (V c main_v49 : FVec Ideal Cert.ReferenceIdeal.S1700000x40 .f32) (broadcastInDim Cert.ReferenceIdeal.S1700000x40 ![0, 1] hb (V c main_v50 : FVec Ideal Cert.ReferenceIdeal.S1700000x1 .f32)) : FVec Ideal Cert.ReferenceIdeal.S1700000x40 .f32))
    (ht : W17 m c main_v49 = val_main_v73 (F := Ideal) (a0 m c) (a1 m c) (a2 m c) (a3 m c) (a4 m c) (a5 m c) (a6 m c)) (hc : W18 m c main_v50 = val_main_v74 (F := Ideal) (a1 m c)) :
    W19 m c main_v51 = val_main_v76 (F := Ideal) (a0 m c) (a1 m c) (a2 m c) (a3 m c) (a4 m c) (a5 m c) (a6 m c) := by
  rw [W19_out m c, hs7 (rd (W18 m)) c (by decide)]
  dsimp only [rd]
  rw [W18_of m c main_v49 (by decide), ht, hc]
  rfl

theorem L3_agg (hsc : W19 m c main_v51 = val_main_v76 (F := Ideal) (a0 m c) (a1 m c) (a2 m c) (a3 m c) (a4 m c) (a5 m c) (a6 m c)) :
    W20 m c main_v54 = val_main_v79 (F := Ideal) (a0 m c) (a1 m c) (a2 m c) (a3 m c) (a4 m c) (a5 m c) (a6 m c) := by
  show StableHlo.after hostOps8 (W19 m c) (Proc.devRef .tc main_v54) = _
  rw [agg3_read, W19_early m c main_v6 (by decide), V3_v6 m c, hsc]
  rfl

theorem L3_row : W20 m c main_v55 = val_main_v80 (F := Ideal) (a7 m c) := by
  show StableHlo.after hostOps8 (W19 m c) (Proc.devRef .tc main_v55) = _
  rw [biasrow3_read, W19_early m c main_arg7 (by decide), V3_arg m c main_arg7 (by decide) (by decide) (by decide)]
  exact Cert.Hand.BiasRow.row40 _ _ _

theorem L3_out (hb8 : ∀ (V : (c : Dev nD) → (b : Ref sig .tc) → Buf (Elt Ideal) ((c : Thread nD τ).loc b)) (c : Dev nD) (hb : Cert.ReferenceIdeal.S1x40.BroadcastsInDim Cert.ReferenceIdeal.S100000x40 ![0, 1]), (dat8 (F := Ideal) V c).arrAt 2 cfg8.N = (addf (V c main_v54 : FVec Ideal Cert.ReferenceIdeal.S100000x40 .f32) (broadcastInDim Cert.ReferenceIdeal.S100000x40 ![0, 1] hb (V c main_v55 : FVec Ideal Cert.ReferenceIdeal.S1x40 .f32)) : FVec Ideal Cert.ReferenceIdeal.S100000x40 .f32))
    (hag : W20 m c main_v54 = val_main_v79 (F := Ideal) (a0 m c) (a1 m c) (a2 m c) (a3 m c) (a4 m c) (a5 m c) (a6 m c)) (hrow : W20 m c main_v55 = val_main_v80 (F := Ideal) (a7 m c)) :
    W21 m c main_v56 = val_main_v82 (F := Ideal) (a0 m c) (a1 m c) (a2 m c) (a3 m c) (a4 m c) (a5 m c) (a6 m c) (a7 m c) := by
  rw [W21_out m c, hb8 (rd (W20 m)) c (by decide)]
  dsimp only [rd]
  rw [hag, hrow]
  rfl

set_option maxHeartbeats 1000000 in
/-- Layer by layer each array of the kernel program holds the reference's value of the same stage; the last is the result. -/
theorem result_eq_of [Cert.Pre_finite_inputs.Facts] (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD)
    (hd0 : ∀ (V : (c : Dev nD) → (b : Ref sig .tc) → Buf (Elt Ideal) ((c : Thread nD τ).loc b)) (c : Dev nD), (dat0 (F := Ideal) V c).arrAt 2 cfg0.N = Host.dotGeneral (F := Ideal) (φ₁ := .f32) (φ₂ := .f32) Cert.ReferenceIdeal.dot_S100000x64_S64x64_S100000x64_1_0_0_1_n_n none (V c main_arg0) (V c main_arg2))
    (hs1 : ∀ (V : (c : Dev nD) → (b : Ref sig .tc) → Buf (Elt Ideal) ((c : Thread nD τ).loc b)) (c : Dev nD) (hb : Cert.ReferenceIdeal.S1700000x1.BroadcastsInDim Cert.ReferenceIdeal.S1700000x64 ![0, 1]), (dat1 (F := Ideal) V c).arrAt 2 cfg1.N = (mulf (V c main_v31 : FVec Ideal Cert.ReferenceIdeal.S1700000x64 .f32) (broadcastInDim Cert.ReferenceIdeal.S1700000x64 ![0, 1] hb (V c main_v32 : FVec Ideal Cert.ReferenceIdeal.S1700000x1 .f32)) : FVec Ideal Cert.ReferenceIdeal.S1700000x64 .f32))
    (hb2 : ∀ (V : (c : Dev nD) → (b : Ref sig .tc) → Buf (Elt Ideal) ((c : Thread nD τ).loc b)) (c : Dev nD) (hb : Cert.ReferenceIdeal.S1x64.BroadcastsInDim Cert.ReferenceIdeal.S100000x64 ![0, 1]) (hs : Cert.ReferenceIdeal.S_.BroadcastsInDim Cert.ReferenceIdeal.S100000x64 ![]), (dat2 (F := Ideal) V c).arrAt 2 cfg2.N = (maximumf (addf (V c main_v36 : FVec Ideal Cert.ReferenceIdeal.S100000x64 .f32) (broadcastInDim Cert.ReferenceIdeal.S100000x64 ![0, 1] hb (V c main_v37 : FVec Ideal Cert.ReferenceIdeal.S1x64 .f32))) (broadcastInDim Cert.ReferenceIdeal.S100000x64 ![] hs (constant (F := Ideal) Cert.ReferenceIdeal.S_ .f32 0x00000000#32)) : FVec Ideal Cert.ReferenceIdeal.S100000x64 .f32))
    (hd3 : ∀ (V : (c : Dev nD) → (b : Ref sig .tc) → Buf (Elt Ideal) ((c : Thread nD τ).loc b)) (c : Dev nD), (dat3 (F := Ideal) V c).arrAt 2 cfg3.N = Host.dotGeneral (F := Ideal) (φ₁ := .f32) (φ₂ := .f32) Cert.ReferenceIdeal.dot_S100000x64_S64x64_S100000x64_1_0_0_1_n_n none (V c main_v38) (V c main_arg4))
    (hs4 : ∀ (V : (c : Dev nD) → (b : Ref sig .tc) → Buf (Elt Ideal) ((c : Thread nD τ).loc b)) (c : Dev nD) (hb : Cert.ReferenceIdeal.S1700000x1.BroadcastsInDim Cert.ReferenceIdeal.S1700000x64 ![0, 1]), (dat4 (F := Ideal) V c).arrAt 2 cfg4.N = (mulf (V c main_v40 : FVec Ideal Cert.ReferenceIdeal.S1700000x64 .f32) (broadcastInDim Cert.ReferenceIdeal.S1700000x64 ![0, 1] hb (V c main_v41 : FVec Ideal Cert.ReferenceIdeal.S1700000x1 .f32)) : FVec Ideal Cert.ReferenceIdeal.S1700000x64 .f32))
    (hb5 : ∀ (V : (c : Dev nD) → (b : Ref sig .tc) → Buf (Elt Ideal) ((c : Thread nD τ).loc b)) (c : Dev nD) (hb : Cert.ReferenceIdeal.S1x64.BroadcastsInDim Cert.ReferenceIdeal.S100000x64 ![0, 1]) (hs : Cert.ReferenceIdeal.S_.BroadcastsInDim Cert.ReferenceIdeal.S100000x64 ![]), (dat5 (F := Ideal) V c).arrAt 2 cfg5.N = (maximumf (addf (V c main_v45 : FVec Ideal Cert.ReferenceIdeal.S100000x64 .f32) (broadcastInDim Cert.ReferenceIdeal.S100000x64 ![0, 1] hb (V c main_v46 : FVec Ideal Cert.ReferenceIdeal.S1x64 .f32))) (broadcastInDim Cert.ReferenceIdeal.S100000x64 ![] hs (constant (F := Ideal) Cert.ReferenceIdeal.S_ .f32 0x00000000#32)) : FVec Ideal Cert.ReferenceIdeal.S100000x64 .f32))
    (hd6 : ∀ (V : (c : Dev nD) → (b : Ref sig .tc) → Buf (Elt Ideal) ((c : Thread nD τ).loc b)) (c : Dev nD), (dat6 (F := Ideal) V c).arrAt 2 cfg6.N = Host.dotGeneral (F := Ideal) (φ₁ := .f32) (φ₂ := .f32) Cert.ReferenceIdeal.dot_S100000x64_S64x40_S100000x40_1_0_0_1_n_n none (V c main_v47) (V c main_arg6))
    (hs7 : ∀ (V : (c : Dev nD) → (b : Ref sig .tc) → Buf (Elt Ideal) ((c : Thread nD τ).loc b)) (c : Dev nD) (hb : Cert.ReferenceIdeal.S1700000x1.BroadcastsInDim Cert.ReferenceIdeal.S1700000x40 ![0, 1]), (dat7 (F := Ideal) V c).arrAt 2 cfg7.N = (mulf (V c main_v49 : FVec Ideal Cert.ReferenceIdeal.S1700000x40 .f32) (broadcastInDim Cert.ReferenceIdeal.S1700000x40 ![0, 1] hb (V c main_v50 : FVec Ideal Cert.ReferenceIdeal.S1700000x1 .f32)) : FVec Ideal Cert.ReferenceIdeal.S1700000x40 .f32))
    (hb8 : ∀ (V : (c : Dev nD) → (b : Ref sig .tc) → Buf (Elt Ideal) ((c : Thread nD τ).loc b)) (c : Dev nD) (hb : Cert.ReferenceIdeal.S1x40.BroadcastsInDim Cert.ReferenceIdeal.S100000x40 ![0, 1]), (dat8 (F := Ideal) V c).arrAt 2 cfg8.N = (addf (V c main_v54 : FVec Ideal Cert.ReferenceIdeal.S100000x40 .f32) (broadcastInDim Cert.ReferenceIdeal.S100000x40 ![0, 1] hb (V c main_v55 : FVec Ideal Cert.ReferenceIdeal.S1x40 .f32)) : FVec Ideal Cert.ReferenceIdeal.S100000x40 .f32)) :
    Cert.ReferenceIdeal.Value.res_main_v82 (F := Ideal) m' c = W21 (F := Ideal) m c Cert.KernelIdeal.main_v56 := by
  have d1 := L1_dense m c hd0
  have t1 := L1_take m c hpre d1
  have k1 := L1_coef m c
  have s1 := L1_scale m c hs1 t1 k1
  have g1 := L1_agg m c s1
  have r1 := L1_row m c
  have o1 := L1_out m c hb2 g1 r1
  have d2 := L2_dense m c hd3 o1
  have t2 := L2_take m c hpre d2
  have k2 := L2_coef m c
  have s2 := L2_scale m c hs4 t2 k2
  have g2 := L2_agg m c s2
  have r2 := L2_row m c
  have o2 := L2_out m c hb5 g2 r2
  have d3 := L3_dense m c hd6 o2
  have t3 := L3_take m c hpre d3
  have k3 := L3_coef m c
  have s3 := L3_scale m c hs7 t3 k3
  have g3 := L3_agg m c s3
  have r3 := L3_row m c
  have o3 := L3_out m c hb8 g3 r3
  obtain ⟨e0, e1, e2, e3, e4, e5, e6, e7⟩ := hagree c
  rw [val_main_v82_eq, e0, e1, e2, e3, e4, e5, e6, e7]
  exact o3.symm

end Cert.KernelIdeal.Hand

end
-- ==== Proof.Ideal.Dense1Val.lean ====
import proofs.«430458_j3401614098765_3_alg».proof.Proof.Ideal.Dense1
import proofs.«430458_j3401614098765_3_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

theorem lhs0_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs0_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs0_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs0_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem pay0_apply (x : Vec Ideal S10000x64 .f32) (w : Vec Ideal S64x64 .f32) (j : S10000x64.Idx) :
    k0_pay1 (F := Ideal) x w j
      = ∑ k : dot_S10000x64_S64x64_S10000x64_1_0_0_1_n_n.contr.Idx,
          x (dot_S10000x64_S64x64_S10000x64_1_0_0_1_n_n.lhsIdx j k) * w (dot_S10000x64_S64x64_S10000x64_1_0_0_1_n_n.rhsIdx j k) := by
  unfold k0_pay1
  refine (Ideal.matmul_constant_zero_apply dot_S10000x64_S64x64_S10000x64_1_0_0_1_n_n none _ _ j).trans ?_
  refine Finset.sum_congr rfl fun k _ => ?_
  simp only [truncf_apply, shapeCast_self]

/-- Entry (p, q) of a block product is the dot product of row p of the block with column q of the weight. -/
theorem blockProduct0 (x : Vec Ideal S10000x64 .f32) (w : Vec Ideal S64x64 .f32) (p : Fin 10000) (q : Fin 64) :
    k0_pay1 (F := Ideal) x w (ix2 p q) = ∑ k : Fin 64, x (ix2 p k) * w (ix2 k q) := by
  rw [pay0_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

theorem lhsArr0_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem lhsArr0_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsArr0_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsArr0_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

abbrev product0 (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

theorem arrayProduct0 (X : FVec Ideal S100000x64 .f32) (W : FVec Ideal S64x64 .f32) (r : Fin 100000) (q : Fin 64) :
    product0 X W (ix2 r q) = ∑ k : Fin 64, X (ix2 r k) * W (ix2 k q) := by
  show FloatOps.dotGeneral Cert.ReferenceIdeal.dot_S100000x64_S64x64_S100000x64_1_0_0_1_n_n none .single X W (ix2 r q) = _
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact lhsArr0_0 _ _
    | ⟨1, _⟩ => exact (lhsArr0_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (rhsArr0_0 _ _).trans hk
    | ⟨1, _⟩ => exact rhsArr0_1 _ _)
  rw [el, er]

/-- A row block times the weight is the matching rows of the whole array times the weight. -/
theorem block_of_product0 (X : FVec Ideal S100000x64 .f32) (W : FVec Ideal S64x64 .f32)
    (x : Vec Ideal S10000x64 .f32) (w : Vec Ideal S64x64 .f32) (n : Nat)
    (hx : ∀ (p : Fin 10000) (k : Fin 64) (r : Fin 100000), r.val = n * 10000 + p.val → x (ix2 p k) = X (ix2 r k))
    (hw : ∀ (k : Fin 64) (q : Fin 64), w (ix2 k q) = W (ix2 k q))
    (j : S10000x64.Idx) (i : S100000x64.Idx) (h0 : (i 0).val = n * 10000 + (j 0).val) (h1 : (i 1).val = (j 1).val) :
    k0_pay1 (F := Ideal) x w j = product0 X W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  rw [blockProduct0, arrayProduct0]
  refine Finset.sum_congr rfl fun k _ => ?_
  rw [hx p k r h0, hw]

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows0 (c : Dev nD) (t : Fin cfg0.N) (p : Fin 10000) (k : Fin 64) (r : Fin 100000) (hr : r.val = t.val * 10000 + p.val) :
    (iblk0 (F := Ideal) V c 0 t : Vec Ideal S10000x64 .f32) (ix2 p k) = (V c main_arg0 : FVec Ideal S100000x64 .f32) (ix2 r k) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

theorem weight0 (c : Dev nD) (t : Fin cfg0.N) (k : Fin 64) (q : Fin 64) :
    (iblk0 (F := Ideal) V c 1 t : Vec Ideal S64x64 .f32) (ix2 k q) = (V c main_arg2 : FVec Ideal S64x64 .f32) (ix2 k q) := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

theorem flushed0_eq (c : Dev nD) (t : Fin cfg0.N) :
    (dat0 (F := Ideal) V c).flushed 2 t
      = ((cfg0.win 2).blk t).view.read (Elt Ideal) (product0 (V c main_arg0) (V c main_arg2)) := by
  show (cfg0.win 2).cut (grid0.coords t) ((dat0 (F := Ideal) V c).after 2 t) = _
  dsimp only [dat0]
  obtain ⟨-, -, -, -, e4, e5⟩ := idx_facts0 t
  funext j
  rw [View.read_apply]
  refine block_of_product0 (V c main_arg0) (V c main_arg2) (iblk0 (F := Ideal) V c 0 t) (iblk0 (F := Ideal) V c 1 t) t.val
    (rows0 V c t) (weight0 V c t) _ _ ?_ ?_
  · show win0_2.index t (0 : Fin 2) * 10000 + 1 * (j 0).val = t.val * 10000 + (j 0).val; rw [e4]; omega
  · show win0_2.index t (1 : Fin 2) * 64 + 1 * (j 1).val = (j 1).val; rw [e5]; omega

theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 64 ≤ (i 1).val ∧ (i 1).val < win0_2.index t (1 : Fin 2) * 64 + 64; rw [e5]; omega

/-- The ten row blocks tile the output array, so the region leaves the whole product. -/
theorem dense0_arr (c : Dev nD) :
    (dat0 (F := Ideal) V c).arrAt 2 cfg0.N
      = Host.dotGeneral (F := Ideal) (φ₁ := .f32) (φ₂ := .f32) Cert.ReferenceIdeal.dot_S100000x64_S64x64_S100000x64_1_0_0_1_n_n none
          (V c main_arg0) (V c main_arg2) :=
  (dat0 (F := Ideal) V c).arrAt_eq_of_cover 2 (product0 (V c main_arg0) (V c main_arg2)) (fun t _ => flushed0_eq V c t) cover0

end Cert.KernelIdeal.Hand

end
-- ==== Proof.Ideal.Dense2Val.lean ====
import proofs.«430458_j3401614098765_3_alg».proof.Proof.Ideal.Dense2
import proofs.«430458_j3401614098765_3_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

theorem lhs3_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs3_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs3_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs3_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem pay3_apply (x : Vec Ideal S10000x64 .f32) (w : Vec Ideal S64x64 .f32) (j : S10000x64.Idx) :
    k3_pay1 (F := Ideal) x w j
      = ∑ k : dot_S10000x64_S64x64_S10000x64_1_0_0_1_n_n.contr.Idx,
          x (dot_S10000x64_S64x64_S10000x64_1_0_0_1_n_n.lhsIdx j k) * w (dot_S10000x64_S64x64_S10000x64_1_0_0_1_n_n.rhsIdx j k) := by
  unfold k3_pay1
  refine (Ideal.matmul_constant_zero_apply dot_S10000x64_S64x64_S10000x64_1_0_0_1_n_n none _ _ j).trans ?_
  refine Finset.sum_congr rfl fun k _ => ?_
  simp only [truncf_apply, shapeCast_self]

/-- Entry (p, q) of a block product is the dot product of row p of the block with column q of the weight. -/
theorem blockProduct3 (x : Vec Ideal S10000x64 .f32) (w : Vec Ideal S64x64 .f32) (p : Fin 10000) (q : Fin 64) :
    k3_pay1 (F := Ideal) x w (ix2 p q) = ∑ k : Fin 64, x (ix2 p k) * w (ix2 k q) := by
  rw [pay3_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

theorem lhsArr3_0 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin S100000x64.rank) ∈ Cert.ReferenceIdeal.dot_S100000x64_S64x64_S100000x64_1_0_0_1_n_n.lhsBatch by decide), dif_pos (show (0 : Fin S100000x64.rank) ∈ Cert.ReferenceIdeal.dot_S100000x64_S64x64_S100000x64_1_0_0_1_n_n.lhsNonContracting by decide)]
  rfl
theorem lhsArr3_1 (i : S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsArr3_0 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsArr3_1 (i : S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin S64x64.rank) ∈ Cert.ReferenceIdeal.dot_S100000x64_S64x64_S100000x64_1_0_0_1_n_n.rhsBatch by decide), dif_pos (show (1 : Fin S64x64.rank) ∈ Cert.ReferenceIdeal.dot_S100000x64_S64x64_S100000x64_1_0_0_1_n_n.rhsNonContracting by decide)]
  rfl

abbrev product3 (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

theorem arrayProduct3 (X : FVec Ideal S100000x64 .f32) (W : FVec Ideal S64x64 .f32) (r : Fin 100000) (q : Fin 64) :
    product3 X W (ix2 r q) = ∑ k : Fin 64, X (ix2 r k) * W (ix2 k q) := by
  show FloatOps.dotGeneral Cert.ReferenceIdeal.dot_S100000x64_S64x64_S100000x64_1_0_0_1_n_n none .single X W (ix2 r q) = _
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r q) ((contrEquiv1 Cert.ReferenceIdeal.dot_S100000x64_S64x64_S100000x64_1_0_0_1_n_n 64 rfl rfl).symm k) = ix2 r k := funext fun a => Fin.ext (by
    match a with
    | ⟨0, _⟩ => exact lhsArr3_0 _ _
    | ⟨1, _⟩ => exact (lhsArr3_1 _ _).trans hk)
  have er : Cert.ReferenceIdeal.dot_S100000x64_S64x64_S100000x64_1_0_0_1_n_n.rhsIdx (ix2 r q) ((contrEquiv1 Cert.ReferenceIdeal.dot_S100000x64_S64x64_S100000x64_1_0_0_1_n_n 64 rfl rfl).symm k) = ix2 k q := funext fun a => Fin.ext (by
    match a with
    | ⟨0, _⟩ => exact (rhsArr3_0 _ _).trans hk
    | ⟨1, _⟩ => exact rhsArr3_1 _ _)
  rw [el, er]

/-- A row block times the weight is the matching rows of the whole array times the weight. -/
theorem block_of_product3 (X : FVec Ideal S100000x64 .f32) (W : FVec Ideal S64x64 .f32)
    (x : Vec Ideal S10000x64 .f32) (w : Vec Ideal S64x64 .f32) (n : Nat)
    (hx : ∀ (p : Fin 10000) (k : Fin 64) (r : Fin 100000), r.val = n * 10000 + p.val → x (ix2 p k) = X (ix2 r k))
    (hw : ∀ (k : Fin 64) (q : Fin 64), w (ix2 k q) = W (ix2 k q))
    (j : S10000x64.Idx) (i : S100000x64.Idx) (h0 : (i 0).val = n * 10000 + (j 0).val) (h1 : (i 1).val = (j 1).val) :
    k3_pay1 (F := Ideal) x w j = product3 X W i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  rw [blockProduct3, arrayProduct3]
  refine Finset.sum_congr rfl fun k _ => ?_
  rw [hx p k r h0, hw]

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rows3 (c : Dev nD) (t : Fin cfg3.N) (p : Fin 10000) (k : Fin 64) (r : Fin 100000) (hr : r.val = t.val * 10000 + p.val) :
    (iblk3 (F := Ideal) V c 0 t : Vec Ideal S10000x64 .f32) (ix2 p k) = (V c main_v38 : FVec Ideal S100000x64 .f32) (ix2 r k) := by
  obtain ⟨e0, e1, -, -, -, -⟩ := idx_facts3 t
  unfold iblk3
  rw [View.read_apply]
  show V c main_v38 _ = V c main_v38 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

theorem weight3 (c : Dev nD) (t : Fin cfg3.N) (k : Fin 64) (q : Fin 64) :
    (iblk3 (F := Ideal) V c 1 t : Vec Ideal S64x64 .f32) (ix2 k q) = (V c main_arg4 : FVec Ideal S64x64 .f32) (ix2 k q) := by
  obtain ⟨-, -, e2, e3, -, -⟩ := idx_facts3 t
  unfold iblk3
  rw [View.read_apply]
  show V c main_arg4 _ = V c main_arg4 _
  congr 1
  funext a
  apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

theorem flushed3_eq (c : Dev nD) (t : Fin cfg3.N) :
    (dat3 (F := Ideal) V c).flushed 2 t
      = ((cfg3.win 2).blk t).view.read (Elt Ideal) (product3 (V c main_v38) (V c main_arg4)) := by
  show (cfg3.win 2).cut (grid3.coords t) ((dat3 (F := Ideal) V c).after 2 t) = _
  dsimp only [dat3]
  obtain ⟨-, -, -, -, e4, e5⟩ := idx_facts3 t
  funext j
  rw [View.read_apply]
  refine block_of_product3 (V c main_v38) (V c main_arg4) (iblk3 (F := Ideal) V c 0 t) (iblk3 (F := Ideal) V c 1 t) t.val
    (rows3 V c t) (weight3 V c t) _ _ ?_ ?_
  · show win3_2.index t (0 : Fin 2) * 10000 + 1 * (j 0).val = t.val * 10000 + (j 0).val; rw [e4]; omega
  · show win3_2.index t (1 : Fin 2) * 64 + 1 * (j 1).val = (j 1).val; rw [e5]; omega

theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v39).slice (win3_2.rect t)).set ↔ _
  rw [View.set_slice_whole, Rect.mem_set_unit]
  exact Iff.rfl

theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  obtain ⟨-, -, -, -, e4, e5⟩ := idx_facts3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 64 ≤ (i 1).val ∧ (i 1).val < win3_2.index t (1 : Fin 2) * 64 + 64; rw [e5]; omega

/-- The ten row blocks tile the output array, so the region leaves the whole product. -/
theorem dense3_arr (c : Dev nD) :
    (dat3 (F := Ideal) V c).arrAt 2 cfg3.N
      = Host.dotGeneral (F := Ideal) (φ₁ := .f32) (φ₂ := .f32) Cert.ReferenceIdeal.dot_S100000x64_S64x64_S100000x64_1_0_0_1_n_n none
          (V c main_v38) (V c main_arg4) :=
  (dat3 (F := Ideal) V c).arrAt_eq_of_cover 2 (product3 (V c main_v38) (V c main_arg4)) (fun t _ => flushed3_eq V c t) cover3

end Cert.KernelIdeal.Hand

end
-- ==== Proof.Ideal.Dense3Val.lean ====
import proofs.«430458_j3401614098765_3_alg».proof.Proof.Ideal.Dense3
import proofs.«430458_j3401614098765_3_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

theorem lhs6_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhs6_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem rhs6_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem rhs6_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

theorem pay6_apply (x : Vec Ideal S10000x64 .f32) (w : Vec Ideal S64x40 .f32) (j : S10000x40.Idx) :
    k6_pay1 (F := Ideal) x w j
      = ∑ k : dot_S10000x64_S64x40_S10000x40_1_0_0_1_n_n.contr.Idx,
          x (dot_S10000x64_S64x40_S10000x40_1_0_0_1_n_n.lhsIdx j k) * w (dot_S10000x64_S64x40_S10000x40_1_0_0_1_n_n.rhsIdx j k) := by
  unfold k6_pay1
  refine (Ideal.matmul_constant_zero_apply dot_S10000x64_S64x40_S10000x40_1_0_0_1_n_n none _ _ j).trans ?_
  refine Finset.sum_congr rfl fun k _ => ?_
  simp only [truncf_apply, shapeCast_self]

/-- Entry (p, q) of a block product is the dot product of row p of the block with column q of the weight. -/
theorem blockProduct6 (x : Vec Ideal S10000x64 .f32) (w : Vec Ideal S64x40 .f32) (p : Fin 10000) (q : Fin 40) :
    k6_pay1 (F := Ideal) x w (ix2 p q) = ∑ k : Fin 64, x (ix2 p k) * w (ix2 k q) := by
  rw [pay6_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact lhs6_0 _ _
    | ⟨1, _⟩ => exact (lhs6_1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (rhs6_0 _ _).trans hk
    | ⟨1, _⟩ => exact rhs6_1 _ _)
  rw [el, er]

theorem lhsArr6_0 (i : S100000x40.Idx) (q : Cert.ReferenceIdeal.dot_S100000x64_S64x40_S100000x40_1_0_0_1_n_n.contr.Idx) :
    (Cert.ReferenceIdeal.dot_S100000x64_S64x40_S100000x40_1_0_0_1_n_n.lhsIdx i q 0).val = (i 0).val := by
  unfold DotDims.lhsIdx
  rw [dif_neg (show ¬(0 : Fin S100000x64.rank) ∈ Cert.ReferenceIdeal.dot_S100000x64_S64x40_S100000x40_1_0_0_1_n_n.lhsBatch by decide), dif_pos (show (0 : Fin S100000x64.rank) ∈ Cert.ReferenceIdeal.dot_S100000x64_S64x40_S100000x40_1_0_0_1_n_n.lhsNonContracting by decide)]
  rfl
theorem lhsArr6_1 (i : S100000x40.Idx) (q : Cert.ReferenceIdeal.dot_S100000x64_S64x40_S100000x40_1_0_0_1_n_n.contr.Idx) :
    (Cert.ReferenceIdeal.dot_S100000x64_S64x40_S100000x40_1_0_0_1_n_n.lhsIdx i q 1).val = (q ⟨0, by decide⟩).val :=
  Cert.ReferenceIdeal.dot_S100000x64_S64x40_S100000x40_1_0_0_1_n_n.lhsIdx_val_of_single rfl i q
theorem rhsArr6_0 (i : S100000x40.Idx) (q : Cert.ReferenceIdeal.dot_S100000x64_S64x40_S100000x40_1_0_0_1_n_n.contr.Idx) :
    (Cert.ReferenceIdeal.dot_S100000x64_S64x40_S100000x40_1_0_0_1_n_n.rhsIdx i q 0).val = (q ⟨0, by decide⟩).val :=
  Cert.ReferenceIdeal.dot_S100000x64_S64x40_S100000x40_1_0_0_1_n_n.rhsIdx_val_of_single rfl i q
theorem rhsArr6_1 (i : S100000x40.Idx) (q : Cert.ReferenceIdeal.dot_S100000x64_S64x40_S100000x40_1_0_0_1_n_n.contr.Idx) :
    (Cert.ReferenceIdeal.dot_S100000x64_S64x40_S100000x40_1_0_0_1_n_n.rhsIdx i q 1).val = (i 1).val := by
  unfold DotDims.rhsIdx
  rw [dif_neg (show ¬(1 : Fin S64x40.rank) ∈ Cert.ReferenceIdeal.dot_S100000x64_S64x40_S100000x40_1_0_0_1_n_n.rhsBatch by decide), dif_pos (show (1 : Fin S64x40.rank) ∈ Cert.ReferenceIdeal.dot_S100000x64_S64x40_S100000x40_1_0_0_1_n_n.rhsNonContracting by decide)]
  rfl

abbrev product6 (X : FVec Ideal S100000x64 .f32) (W : FVec Ideal S64x40 .f32) : FVec Ideal S100000x40 .f32 :=
  Host.dotGeneral (F := Ideal) Cert.ReferenceIdeal.dot_S100000x64_S64x40_S100000x40_1_0_0_1_n_n none X W

theorem arrayProduct6 (X : FVec Ideal S100000x64 .f32) (W : FVec Ideal S64x40 .f32) (r : Fin 100000) (q : Fin 40) :
    product6 X W (ix2 r q) = ∑ k : Fin 64, X (ix2 r k) * W (ix2 k q) := by
  show FloatOps.dotGeneral Cert.ReferenceIdeal.dot_S100000x64_S64x40_S100000x40_1_0_0_1_n_n none .single X W (ix2 r q) = _
  rw [Ideal.dotGeneral_apply, ← Equiv.sum_comp (contrEquiv1 Cert.ReferenceIdeal.dot_S100000x64_S64x40_S100000x40_1_0_0_1_n_n 64 rfl rfl).symm]
  refine Finset.sum_congr rfl fun k _ => ?_
  have hk := contrEquiv1_symm_val Cert.ReferenceIdeal.dot_S100000x64_S64x40_S100000x40_1_0_0_1_n_n 64 rfl rfl k
  have el : Cert.ReferenceIdeal.dot_S100000x64_S64x40_S100000x40_1_0_0_1_n_n.lhsIdx (ix2 r q) ((contrEquiv1 Cert.ReferenceIdeal.dot_S100000x64_S64x40_S100000x40_1_0_0_1_n_n 64 rfl rfl).symm k) = ix2 r k := funext fun a => Fin.ext (by
    match a with
    | ⟨0, _⟩ => exact lhsArr6_0 _ _
    | ⟨1, _⟩ => exact (lhsArr6_1 _ _).trans hk)
  have er : Cert.ReferenceIdeal.dot_S100000x64_S64x40_S100000x40_1_0_0_1_n_n.rhsIdx (ix2 r q) ((contrEquiv1 Cert.ReferenceIdeal.dot_S100000x64_S64x40_S100000x40_1_0_0_1_n_n 64 rfl rfl).symm k) = ix2 k q := funext fun a => Fin.ext (by
    match a with
    | ⟨0, _⟩ => exact (rhsArr6_0 _ _).trans hk
    | ⟨1, _⟩ => exact rhsArr6_1 _ _)
  rw [el, er]

/-- A row block times the weight is the matching rows of the whole array times the weight. -/
theorem block_of_product6 (X : FVec Ideal S100000x64 .f32) (W : FVec Ideal S64x40 .f32)
    (x : Vec Ideal S10000x64 .f32) (w : Vec Ideal S64x40 .f32) (n : Nat)
    (hx : ∀ (p : Fin 10000) (k : Fin 64) (r : Fin 100000), r.val = n * 10000 + p.val → x (ix2 p k) = X (ix2 r k))
    (hw : ∀ (k : Fin 64) (q : Fin 40), w (ix2 k q) = W (ix2 k q))
    (j : S10000x40.Idx) (i : S100000x40.Idx) (h0 : (i 0).val = n * 10000 + (j 0).val) (h1 : (i 1).val = (j 1).val) :
    k6_pay1 (F := Ideal) x w j = product6 X W i := by
  obtain ⟨p, q, rfl⟩ : ∃ (p : Fin 10000) (q : Fin 40), j = ix2 p q := ⟨j 0, j 1, eq_ix2 j⟩
  obtain ⟨r, q', rfl⟩ : ∃ (r : Fin 100000) (q' : Fin 40), i = ix2 r q' := ⟨i 0, i 1, eq_ix2 i⟩
  obtain rfl : q' = q := Fin.ext h1
  rw [blockProduct6, arrayProduct6]
  refine Finset.sum_congr rfl fun k _ => ?_
  rw [hx p k r h0, hw]

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem rows6 (c : Dev nD) (t : Fin cfg6.N) (p : Fin 10000) (k : Fin 64) (r : Fin 100000) (hr : r.val = t.val * 10000 + p.val) :
    (iblk6 (F := Ideal) V c 0 t : Vec Ideal S10000x64 .f32) (ix2 p k) = (V c main_v47 : FVec Ideal S100000x64 .f32) (ix2 r k) := by
  obtain ⟨e0, e1, -, -, -, -⟩ := idx_facts6 t
  unfold iblk6
  rw [View.read_apply]
  show V c main_v47 _ = V c main_v47 _
  congr 1
  funext a
  apply Fin.ext
  match a with
  | ⟨0, _⟩ => show win6_0.index t (0 : Fin 2) * 10000 + 1 * p.val = r.val; rw [e0, hr]; omega
  | ⟨1, _⟩ => show win6_0.index t (1 : Fin 2) * 64 + 1 * k.val = k.val; rw [e1]; omega

theorem weight6 (c : Dev nD) (t : Fin cfg6.N) (k : Fin 64) (q : Fin 40) :
    (iblk6 (F := Ideal) V c 1 t : Vec Ideal S64x40 .f32) (ix2 k q) = (V c main_arg6 : FVec Ideal S64x40 .f32) (ix2 k q) := by
  obtain ⟨-, -, e2, e3, -, -⟩ := idx_facts6 t
  unfold iblk6
  rw [View.read_apply]
  show V c main_arg6 _ = V c main_arg6 _
  congr 1
  funext a
  apply Fin.ext
  match a with
  | ⟨0, _⟩ => show win6_1.index t (0 : Fin 2) * 64 + 1 * k.val = k.val; rw [e2]; omega
  | ⟨1, _⟩ => show win6_1.index t (1 : Fin 2) * 40 + 1 * q.val = q.val; rw [e3]; omega

theorem flushed6_eq (c : Dev nD) (t : Fin cfg6.N) :
    (dat6 (F := Ideal) V c).flushed 2 t
      = ((cfg6.win 2).blk t).view.read (Elt Ideal) (product6 (V c main_v47) (V c main_arg6)) := by
  show (cfg6.win 2).cut (grid6.coords t) ((dat6 (F := Ideal) V c).after 2 t) = _
  dsimp only [dat6]
  obtain ⟨-, -, -, -, e4, e5⟩ := idx_facts6 t
  funext j
  rw [View.read_apply]
  refine block_of_product6 (V c main_v47) (V c main_arg6) (iblk6 (F := Ideal) V c 0 t) (iblk6 (F := Ideal) V c 1 t) t.val
    (rows6 V c t) (weight6 V c t) _ _ ?_ ?_
  · show win6_2.index t (0 : Fin 2) * 10000 + 1 * (j 0).val = t.val * 10000 + (j 0).val; rw [e4]; omega
  · show win6_2.index t (1 : Fin 2) * 40 + 1 * (j 1).val = (j 1).val; rw [e5]; omega

theorem mem_blk6 (t : Fin cfg6.N) (i : S100000x40.Idx) :
    i ∈ ((cfg6.win 2).blk t).view.set ↔ ∀ a : Fin 2, win6_2.index t a * S10000x40.size a ≤ (i a).val ∧ (i a).val < win6_2.index t a * S10000x40.size a + S10000x40.size a := by
  show i ∈ ((View.whole main_v48).slice (win6_2.rect t)).set ↔ _
  rw [View.set_slice_whole, Rect.mem_set_unit]
  exact Iff.rfl

theorem cover6 (i : S100000x40.Idx) : ∃ t : Fin cfg6.N, (cfg6.win 2).flush t = true ∧ i ∈ ((cfg6.win 2).blk t).view.set := by
  have hi0 : (i 0).val < 100000 := (i 0).isLt
  have hi1 : (i 1).val < 40 := (i 1).isLt
  have hN : cfg6.N = 10 := N_6
  let t : Fin cfg6.N := ⟨(i 0).val / 10000, by rw [hN]; omega⟩
  obtain ⟨-, -, -, -, e4, e5⟩ := idx_facts6 t
  have ht : t.val = (i 0).val / 10000 := rfl
  refine ⟨t, flush6_2 t, ?_⟩
  rw [mem_blk6]
  intro a
  match a with
  | ⟨0, _⟩ => show win6_2.index t (0 : Fin 2) * 10000 ≤ (i 0).val ∧ (i 0).val < win6_2.index t (0 : Fin 2) * 10000 + 10000; rw [e4, ht]; omega
  | ⟨1, _⟩ => show win6_2.index t (1 : Fin 2) * 40 ≤ (i 1).val ∧ (i 1).val < win6_2.index t (1 : Fin 2) * 40 + 40; rw [e5]; omega

/-- The ten row blocks tile the output array, so the region leaves the whole product. -/
theorem dense6_arr (c : Dev nD) :
    (dat6 (F := Ideal) V c).arrAt 2 cfg6.N
      = Host.dotGeneral (F := Ideal) (φ₁ := .f32) (φ₂ := .f32) Cert.ReferenceIdeal.dot_S100000x64_S64x40_S100000x40_1_0_0_1_n_n none
          (V c main_v47) (V c main_arg6) :=
  (dat6 (F := Ideal) V c).arrAt_eq_of_cover 2 (product6 (V c main_v47) (V c main_arg6)) (fun t _ => flushed6_eq V c t) cover6

end Cert.KernelIdeal.Hand

end
-- ==== Proof.Ideal.Scale1Val.lean ====
import proofs.«430458_j3401614098765_3_alg».proof.Proof.Ideal.Scale1
import proofs.«430458_j3401614098765_3_alg».proof.ReferenceIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

theorem pay1_apply (x0 : Vec F S8192x64 .f32) (x2 : Vec F S8192x1 .f32) (p : Fin 8192) (q : Fin 64) :
    k1_pay1 x0 x2 (ix2 p q) = FloatOps.mulf (x0 (ix2 p q)) (x2 (ix2 p (0 : Fin 1))) := by
  unfold k1_pay1
  show FloatOps.mulf (shapeCast S8192x64 x0 shapeCasts_S8192x64_S8192x64 (ix2 p q))
      (broadcastTo S8192x64 (shapeCast S8192x1 x2 shapeCasts_S8192x1_S8192x1) broadcasts_S8192x1_S8192x64 (ix2 p q)) = _
  rw [shapeCast_self, shapeCast_self]
  refine congrArg (FloatOps.mulf (x0 (ix2 p q))) ?_
  refine broadcastTo_apply x2 broadcasts_S8192x1_S8192x64 (ix2 p q) (ix2 p (0 : Fin 1)) fun a => ?_
  match a with
  | ⟨0, _⟩ => rfl
  | ⟨1, _⟩ => rfl

theorem scaled1_apply (A0 : S1700000x64.Idx → Elt F .f32) (A1 : S1700000x1.Idx → Elt F .f32)
    (hb : Cert.ReferenceIdeal.S1700000x1.BroadcastsInDim Cert.ReferenceIdeal.S1700000x64 ![0, 1])
    (i : S1700000x64.Idx) (r : Fin 1700000) (hr : r.val = (i 0).val) :
    mulf A0 (broadcastInDim Cert.ReferenceIdeal.S1700000x64 ![0, 1] hb A1) i = FloatOps.mulf (A0 i) (A1 (ix2 r (0 : Fin 1))) := by
  show FloatOps.mulf (A0 i) (broadcastInDim Cert.ReferenceIdeal.S1700000x64 ![0, 1] hb A1 i) = _
  refine congrArg (FloatOps.mulf (A0 i)) ?_
  exact broadcastInDim_apply _ hb A1 i (ix2 r (0 : Fin 1)) (fun a => match a with
    | ⟨0, _⟩ => by show r.val = if (1700000 : Nat) = 1 then 0 else (i 0).val; rw [if_neg (by decide)]; exact hr
    | ⟨1, _⟩ => by show 0 = if (1 : Nat) = 1 then 0 else (i 1).val; rw [if_pos rfl])

theorem fill1_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

theorem grid_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_0.xsize (grid1.coords t) (0 : Fin 2) = win1_2.xsize (grid1.coords t) (0 : Fin 2)
    ∧ win1_1.xsize (grid1.coords t) (0 : Fin 2) = win1_2.xsize (grid1.coords t) (0 : Fin 2)
    ∧ win1_0.xsize (grid1.coords t) (1 : Fin 2) = 64
    ∧ win1_1.xsize (grid1.coords t) (1 : Fin 2) = 1
    ∧ win1_2.xsize (grid1.coords t) (1 : Fin 2) = 64
    ∧ t.val * 8192 + win1_2.xsize (grid1.coords t) (0 : Fin 2) ≤ 1700000
    ∧ ((t.val + 1) * 8192 ≤ 1700000 → win1_2.xsize (grid1.coords t) (0 : Fin 2) = 8192)
    ∧ (1700000 < (t.val + 1) * 8192 → t.val * 8192 + win1_2.xsize (grid1.coords t) (0 : Fin 2) = 1700000) :=
  (by decide +kernel : ∀ t : Fin grid1.N, _)

variable (V : (c : Dev nD) → (b : Ref sig .tc) → Buf (Elt F) ((c : Thread nD τ).loc b))

theorem rows1_apply (c : Dev nD) (t : Fin cfg1.N) (p : Fin 8192) (q : Fin 64)
    (hp : p.val < win1_2.xsize (grid1.coords t) (0 : Fin 2)) (i : S1700000x64.Idx)
    (hi0 : (i 0).val = t.val * 8192 + p.val) (hi1 : (i 1).val = q.val) :
    rows1 V c t (ix2 p q) = (V c main_v31 : S1700000x64.Idx → Elt F .f32) i := by
  obtain ⟨e00, e01, e10, e11, e20, e21, x0, x1, y0, y1, y2, _⟩ := grid_facts1 t
  unfold rows1
  refine (fill1_apply_of_lt win1_0 (grid1.coords t) (fun _ => Scalar.ofBits .f32 0#32) (iblk1 V c 0 t) (ix2 p q)
    (fun a => match a with
      | ⟨0, _⟩ => by show p.val < win1_0.xsize (grid1.coords t) (0 : Fin 2); rw [x0]; exact hp
      | ⟨1, _⟩ => by show q.val < win1_0.xsize (grid1.coords t) (1 : Fin 2); rw [y0]; exact q.isLt)).trans ?_
  unfold iblk1
  show V c main_v31 (((cfg1.win 0).blk t).view.emb _) = V c main_v31 i
  refine congrArg _ (funext fun a => Fin.ext ?_)
  match a with
  | ⟨0, _⟩ => show win1_0.index t (0 : Fin 2) * 8192 + 1 * p.val = (i 0).val; rw [e00, hi0]; omega
  | ⟨1, _⟩ => show win1_0.index t (1 : Fin 2) * 64 + 1 * q.val = (i 1).val; rw [e01, hi1]; omega

theorem coef1_apply (c : Dev nD) (t : Fin cfg1.N) (p : Fin 8192)
    (hp : p.val < win1_2.xsize (grid1.coords t) (0 : Fin 2)) (r : Fin 1700000)
    (hr : r.val = t.val * 8192 + p.val) :
    coef1 V c t (ix2 p (0 : Fin 1)) = (V c main_v32 : S1700000x1.Idx → Elt F .f32) (ix2 r (0 : Fin 1)) := by
  obtain ⟨e00, e01, e10, e11, e20, e21, x0, x1, y0, y1, y2, _⟩ := grid_facts1 t
  unfold coef1
  refine (fill1_apply_of_lt win1_1 (grid1.coords t) (fun _ => Scalar.ofBits .f32 0#32) (iblk1 V c 1 t) (ix2 p (0 : Fin 1))
    (fun a => match a with
      | ⟨0, _⟩ => by show p.val < win1_1.xsize (grid1.coords t) (0 : Fin 2); rw [x1]; exact hp
      | ⟨1, _⟩ => by show 0 < win1_1.xsize (grid1.coords t) (1 : Fin 2); rw [y1]; exact Nat.one_pos)).trans ?_
  unfold iblk1
  show V c main_v32 (((cfg1.win 1).blk t).view.emb _) = V c main_v32 (ix2 r (0 : Fin 1))
  refine congrArg _ (funext fun a => Fin.ext ?_)
  match a with
  | ⟨0, _⟩ => show win1_1.index t (0 : Fin 2) * 8192 + 1 * p.val = r.val; rw [e10, hr]; omega
  | ⟨1, _⟩ => show win1_1.index t (1 : Fin 2) * 1 + 1 * 0 = 0; rw [e11]

/-- What point `t` writes is block `t` of the array scaled row by row by the coefficients. -/
theorem flushed1_eq (c : Dev nD)
    (hb : Cert.ReferenceIdeal.S1700000x1.BroadcastsInDim Cert.ReferenceIdeal.S1700000x64 ![0, 1]) (t : Fin cfg1.N) :
    (dat1 (F := F) V c).flushed 2 t
      = ((cfg1.win 2).blk t).view.read (Elt F)
          (mulf (V c main_v31) (broadcastInDim Cert.ReferenceIdeal.S1700000x64 ![0, 1] hb (V c main_v32))) := by
  obtain ⟨e00, e01, e10, e11, e20, e21, x0, x1, y0, y1, y2, hin, _⟩ := grid_facts1 t
  show (cfg1.win 2).cut (grid1.coords t) ((dat1 (F := F) V c).after 2 t) = _
  dsimp only [dat1]
  funext y
  have hy0 : (y 0).val < win1_2.xsize (grid1.coords t) (0 : Fin 2) := (y 0).isLt
  have hy1 : (y 1).val < win1_2.xsize (grid1.coords t) (1 : Fin 2) := (y 1).isLt
  have hp : (y 0).val < 8192 := lt_of_lt_of_le hy0 (win1_2.xsize_le (grid1.coords t) (0 : Fin 2))
  rw [y2] at hy1
  have hr : t.val * 8192 + (y 0).val < 1700000 := by omega
  have hx : win1_2.xinj (grid1.coords t) y = ix2 (⟨(y 0).val, hp⟩ : Fin 8192) (⟨(y 1).val, hy1⟩ : Fin 64) :=
    funext fun a => match a with | ⟨0, _⟩ => rfl | ⟨1, _⟩ => rfl
  have hi0 : ((((cfg1.win 2).blk t).view.emb y : S1700000x64.Idx) 0).val = t.val * 8192 + (y 0).val := by
    show win1_2.index t (0 : Fin 2) * 8192 + 1 * (y 0).val = _; rw [e20]; omega
  have hi1 : ((((cfg1.win 2).blk t).view.emb y : S1700000x64.Idx) 1).val = (y 1).val := by
    show win1_2.index t (1 : Fin 2) * 64 + 1 * (y 1).val = _; rw [e21]; omega
  show k1_pay1 (rows1 V c t) (coef1 V c t) (win1_2.xinj (grid1.coords t) y)
    = mulf (V c main_v31 : S1700000x64.Idx → Elt F .f32) (broadcastInDim Cert.ReferenceIdeal.S1700000x64 ![0, 1] hb (V c main_v32 : S1700000x1.Idx → Elt F .f32))
        (((cfg1.win 2).blk t).view.emb y)
  rw [hx]
  refine (pay1_apply _ _ _ _).trans ?_
  refine Eq.trans ?_ (scaled1_apply _ _ hb _ (⟨t.val * 8192 + (y 0).val, hr⟩ : Fin 1700000) hi0.symm).symm
  exact congrArg₂ FloatOps.mulf
    (rows1_apply V c t (⟨(y 0).val, hp⟩ : Fin 8192) (⟨(y 1).val, hy1⟩ : Fin 64) hy0 _ hi0 hi1)
    (coef1_apply V c t (⟨(y 0).val, hp⟩ : Fin 8192) hy0 (⟨t.val * 8192 + (y 0).val, hr⟩ : Fin 1700000) rfl)

theorem mem_blk1 (t : Fin cfg1.N) (i : S1700000x64.Idx) :
    i ∈ ((cfg1.win 2).blk t).view.set ↔ ∀ a : Fin 2, win1_2.index t a * S8192x64.size a ≤ (i a).val
      ∧ (i a).val < win1_2.index t a * S8192x64.size a + win1_2.xsize (grid1.coords t) a := by
  show i ∈ ((View.whole main_v33).slice (win1_2.rect t)).set ↔ _
  rw [View.set_slice_whole, Rect.mem_set_unit]
  exact Iff.rfl

/-- Row r lies in block r / 8192, the last block cut at the array's end: the region leaves every row times its coefficient. -/
theorem scale1_arr (c : Dev nD)
    (hb : Cert.ReferenceIdeal.S1700000x1.BroadcastsInDim Cert.ReferenceIdeal.S1700000x64 ![0, 1]) :
    (dat1 (F := F) V c).arrAt 2 cfg1.N
      = mulf (V c main_v31) (broadcastInDim Cert.ReferenceIdeal.S1700000x64 ![0, 1] hb (V c main_v32)) :=
  (dat1 (F := F) V c).arrAt_eq_of_cover 2 _ (fun t _ => flushed1_eq V c hb t) fun i => by
    have hi0 : ((i : S1700000x64.Idx) 0).val < 1700000 := (i 0).isLt
    have hi1 : ((i : S1700000x64.Idx) 1).val < 64 := (i 1).isLt
    obtain ⟨t, ht⟩ : ∃ t : Fin cfg1.N, t.val = ((i : S1700000x64.Idx) 0).val / 8192 :=
      ⟨⟨((i : S1700000x64.Idx) 0).val / 8192, by rw [show cfg1.N = 208 from N_1]; omega⟩, rfl⟩
    obtain ⟨e00, e01, e10, e11, e20, e21, x0, x1, y0, y1, y2, hin, hfull, hlast⟩ := grid_facts1 t
    refine ⟨t, flush1_2 t, ?_⟩
    rw [mem_blk1]
    intro a
    match a with
    | ⟨0, _⟩ =>
      show win1_2.index t (0 : Fin 2) * 8192 ≤ ((i : S1700000x64.Idx) 0).val
        ∧ ((i : S1700000x64.Idx) 0).val < win1_2.index t (0 : Fin 2) * 8192 + win1_2.xsize (grid1.coords t) (0 : Fin 2)
      rw [e20]
      by_cases h : (t.val + 1) * 8192 ≤ 1700000
      · rw [hfull h]; omega
      · have := hlast (by omega); omega
    | ⟨1, _⟩ =>
      show win1_2.index t (1 : Fin 2) * 64 ≤ ((i : S1700000x64.Idx) 1).val
        ∧ ((i : S1700000x64.Idx) 1).val < win1_2.index t (1 : Fin 2) * 64 + win1_2.xsize (grid1.coords t) (1 : Fin 2)
      rw [e21, y2]; omega

end Cert.KernelIdeal.Hand

end
-- ==== Proof.Ideal.Scale2Val.lean ====
import proofs.«430458_j3401614098765_3_alg».proof.Proof.Ideal.Scale2
import proofs.«430458_j3401614098765_3_alg».proof.ReferenceIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

theorem pay4_apply (x0 : Vec F S8192x64 .f32) (x2 : Vec F S8192x1 .f32) (p : Fin 8192) (q : Fin 64) :
    k4_pay1 x0 x2 (ix2 p q) = FloatOps.mulf (x0 (ix2 p q)) (x2 (ix2 p (0 : Fin 1))) := by
  unfold k4_pay1
  show FloatOps.mulf (shapeCast S8192x64 x0 shapeCasts_S8192x64_S8192x64 (ix2 p q))
      (broadcastTo S8192x64 (shapeCast S8192x1 x2 shapeCasts_S8192x1_S8192x1) broadcasts_S8192x1_S8192x64 (ix2 p q)) = _
  rw [shapeCast_self, shapeCast_self]
  refine congrArg (FloatOps.mulf (x0 (ix2 p q))) ?_
  refine broadcastTo_apply x2 broadcasts_S8192x1_S8192x64 (ix2 p q) (ix2 p (0 : Fin 1)) fun a => ?_
  match a with
  | ⟨0, _⟩ => rfl
  | ⟨1, _⟩ => rfl

theorem scaled4_apply (A0 : S1700000x64.Idx → Elt F .f32) (A1 : S1700000x1.Idx → Elt F .f32)
    (hb : Cert.ReferenceIdeal.S1700000x1.BroadcastsInDim Cert.ReferenceIdeal.S1700000x64 ![0, 1])
    (i : S1700000x64.Idx) (r : Fin 1700000) (hr : r.val = (i 0).val) :
    mulf A0 (broadcastInDim Cert.ReferenceIdeal.S1700000x64 ![0, 1] hb A1) i = FloatOps.mulf (A0 i) (A1 (ix2 r (0 : Fin 1))) := by
  show FloatOps.mulf (A0 i) (broadcastInDim Cert.ReferenceIdeal.S1700000x64 ![0, 1] hb A1 i) = _
  refine congrArg (FloatOps.mulf (A0 i)) ?_
  exact broadcastInDim_apply _ hb A1 i (ix2 r (0 : Fin 1)) (fun a => match a with
    | ⟨0, _⟩ => by show r.val = if (1700000 : Nat) = 1 then 0 else (i 0).val; rw [if_neg (by decide)]; exact hr
    | ⟨1, _⟩ => by show 0 = if (1 : Nat) = 1 then 0 else (i 1).val; rw [if_pos rfl])

theorem fill4_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

theorem grid_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_0.xsize (grid4.coords t) (0 : Fin 2) = win4_2.xsize (grid4.coords t) (0 : Fin 2)
    ∧ win4_1.xsize (grid4.coords t) (0 : Fin 2) = win4_2.xsize (grid4.coords t) (0 : Fin 2)
    ∧ win4_0.xsize (grid4.coords t) (1 : Fin 2) = 64
    ∧ win4_1.xsize (grid4.coords t) (1 : Fin 2) = 1
    ∧ win4_2.xsize (grid4.coords t) (1 : Fin 2) = 64
    ∧ t.val * 8192 + win4_2.xsize (grid4.coords t) (0 : Fin 2) ≤ 1700000
    ∧ ((t.val + 1) * 8192 ≤ 1700000 → win4_2.xsize (grid4.coords t) (0 : Fin 2) = 8192)
    ∧ (1700000 < (t.val + 1) * 8192 → t.val * 8192 + win4_2.xsize (grid4.coords t) (0 : Fin 2) = 1700000) :=
  (by decide +kernel : ∀ t : Fin grid4.N, _)

variable (V : (c : Dev nD) → (b : Ref sig .tc) → Buf (Elt F) ((c : Thread nD τ).loc b))

theorem rows4_apply (c : Dev nD) (t : Fin cfg4.N) (p : Fin 8192) (q : Fin 64)
    (hp : p.val < win4_2.xsize (grid4.coords t) (0 : Fin 2)) (i : S1700000x64.Idx)
    (hi0 : (i 0).val = t.val * 8192 + p.val) (hi1 : (i 1).val = q.val) :
    rows4 V c t (ix2 p q) = (V c main_v40 : S1700000x64.Idx → Elt F .f32) i := by
  obtain ⟨e00, e01, e10, e11, e20, e21, x0, x1, y0, y1, y2, _⟩ := grid_facts4 t
  unfold rows4
  refine (fill4_apply_of_lt win4_0 (grid4.coords t) (fun _ => Scalar.ofBits .f32 0#32) (iblk4 V c 0 t) (ix2 p q)
    (fun a => match a with
      | ⟨0, _⟩ => by show p.val < win4_0.xsize (grid4.coords t) (0 : Fin 2); rw [x0]; exact hp
      | ⟨1, _⟩ => by show q.val < win4_0.xsize (grid4.coords t) (1 : Fin 2); rw [y0]; exact q.isLt)).trans ?_
  unfold iblk4
  show V c main_v40 (((cfg4.win 0).blk t).view.emb _) = V c main_v40 i
  refine congrArg _ (funext fun a => Fin.ext ?_)
  match a with
  | ⟨0, _⟩ => show win4_0.index t (0 : Fin 2) * 8192 + 1 * p.val = (i 0).val; rw [e00, hi0]; omega
  | ⟨1, _⟩ => show win4_0.index t (1 : Fin 2) * 64 + 1 * q.val = (i 1).val; rw [e01, hi1]; omega

theorem coef4_apply (c : Dev nD) (t : Fin cfg4.N) (p : Fin 8192)
    (hp : p.val < win4_2.xsize (grid4.coords t) (0 : Fin 2)) (r : Fin 1700000)
    (hr : r.val = t.val * 8192 + p.val) :
    coef4 V c t (ix2 p (0 : Fin 1)) = (V c main_v41 : S1700000x1.Idx → Elt F .f32) (ix2 r (0 : Fin 1)) := by
  obtain ⟨e00, e01, e10, e11, e20, e21, x0, x1, y0, y1, y2, _⟩ := grid_facts4 t
  unfold coef4
  refine (fill4_apply_of_lt win4_1 (grid4.coords t) (fun _ => Scalar.ofBits .f32 0#32) (iblk4 V c 1 t) (ix2 p (0 : Fin 1))
    (fun a => match a with
      | ⟨0, _⟩ => by show p.val < win4_1.xsize (grid4.coords t) (0 : Fin 2); rw [x1]; exact hp
      | ⟨1, _⟩ => by show 0 < win4_1.xsize (grid4.coords t) (1 : Fin 2); rw [y1]; exact Nat.one_pos)).trans ?_
  unfold iblk4
  show V c main_v41 (((cfg4.win 1).blk t).view.emb _) = V c main_v41 (ix2 r (0 : Fin 1))
  refine congrArg _ (funext fun a => Fin.ext ?_)
  match a with
  | ⟨0, _⟩ => show win4_1.index t (0 : Fin 2) * 8192 + 1 * p.val = r.val; rw [e10, hr]; omega
  | ⟨1, _⟩ => show win4_1.index t (1 : Fin 2) * 1 + 1 * 0 = 0; rw [e11]

/-- What point `t` writes is block `t` of the array scaled row by row by the coefficients. -/
theorem flushed4_eq (c : Dev nD)
    (hb : Cert.ReferenceIdeal.S1700000x1.BroadcastsInDim Cert.ReferenceIdeal.S1700000x64 ![0, 1]) (t : Fin cfg4.N) :
    (dat4 (F := F) V c).flushed 2 t
      = ((cfg4.win 2).blk t).view.read (Elt F)
          (mulf (V c main_v40) (broadcastInDim Cert.ReferenceIdeal.S1700000x64 ![0, 1] hb (V c main_v41))) := by
  obtain ⟨e00, e01, e10, e11, e20, e21, x0, x1, y0, y1, y2, hin, _⟩ := grid_facts4 t
  show (cfg4.win 2).cut (grid4.coords t) ((dat4 (F := F) V c).after 2 t) = _
  dsimp only [dat4]
  funext y
  have hy0 : (y 0).val < win4_2.xsize (grid4.coords t) (0 : Fin 2) := (y 0).isLt
  have hy1 : (y 1).val < win4_2.xsize (grid4.coords t) (1 : Fin 2) := (y 1).isLt
  have hp : (y 0).val < 8192 := lt_of_lt_of_le hy0 (win4_2.xsize_le (grid4.coords t) (0 : Fin 2))
  rw [y2] at hy1
  have hr : t.val * 8192 + (y 0).val < 1700000 := by omega
  have hx : win4_2.xinj (grid4.coords t) y = ix2 (⟨(y 0).val, hp⟩ : Fin 8192) (⟨(y 1).val, hy1⟩ : Fin 64) :=
    funext fun a => match a with | ⟨0, _⟩ => rfl | ⟨1, _⟩ => rfl
  have hi0 : ((((cfg4.win 2).blk t).view.emb y : S1700000x64.Idx) 0).val = t.val * 8192 + (y 0).val := by
    show win4_2.index t (0 : Fin 2) * 8192 + 1 * (y 0).val = _; rw [e20]; omega
  have hi1 : ((((cfg4.win 2).blk t).view.emb y : S1700000x64.Idx) 1).val = (y 1).val := by
    show win4_2.index t (1 : Fin 2) * 64 + 1 * (y 1).val = _; rw [e21]; omega
  show k4_pay1 (rows4 V c t) (coef4 V c t) (win4_2.xinj (grid4.coords t) y)
    = mulf (V c main_v40 : S1700000x64.Idx → Elt F .f32) (broadcastInDim Cert.ReferenceIdeal.S1700000x64 ![0, 1] hb (V c main_v41 : S1700000x1.Idx → Elt F .f32))
        (((cfg4.win 2).blk t).view.emb y)
  rw [hx]
  refine (pay4_apply _ _ _ _).trans ?_
  refine Eq.trans ?_ (scaled4_apply _ _ hb _ (⟨t.val * 8192 + (y 0).val, hr⟩ : Fin 1700000) hi0.symm).symm
  exact congrArg₂ FloatOps.mulf
    (rows4_apply V c t (⟨(y 0).val, hp⟩ : Fin 8192) (⟨(y 1).val, hy1⟩ : Fin 64) hy0 _ hi0 hi1)
    (coef4_apply V c t (⟨(y 0).val, hp⟩ : Fin 8192) hy0 (⟨t.val * 8192 + (y 0).val, hr⟩ : Fin 1700000) rfl)

theorem mem_blk4 (t : Fin cfg4.N) (i : S1700000x64.Idx) :
    i ∈ ((cfg4.win 2).blk t).view.set ↔ ∀ a : Fin 2, win4_2.index t a * S8192x64.size a ≤ (i a).val
      ∧ (i a).val < win4_2.index t a * S8192x64.size a + win4_2.xsize (grid4.coords t) a := by
  show i ∈ ((View.whole main_v42).slice (win4_2.rect t)).set ↔ _
  rw [View.set_slice_whole, Rect.mem_set_unit]
  exact Iff.rfl

/-- Row r lies in block r / 8192, the last block cut at the array's end: the region leaves every row times its coefficient. -/
theorem scale4_arr (c : Dev nD)
    (hb : Cert.ReferenceIdeal.S1700000x1.BroadcastsInDim Cert.ReferenceIdeal.S1700000x64 ![0, 1]) :
    (dat4 (F := F) V c).arrAt 2 cfg4.N
      = mulf (V c main_v40) (broadcastInDim Cert.ReferenceIdeal.S1700000x64 ![0, 1] hb (V c main_v41)) :=
  (dat4 (F := F) V c).arrAt_eq_of_cover 2 _ (fun t _ => flushed4_eq V c hb t) fun i => by
    have hi0 : ((i : S1700000x64.Idx) 0).val < 1700000 := (i 0).isLt
    have hi1 : ((i : S1700000x64.Idx) 1).val < 64 := (i 1).isLt
    obtain ⟨t, ht⟩ : ∃ t : Fin cfg4.N, t.val = ((i : S1700000x64.Idx) 0).val / 8192 :=
      ⟨⟨((i : S1700000x64.Idx) 0).val / 8192, by rw [show cfg4.N = 208 from N_4]; omega⟩, rfl⟩
    obtain ⟨e00, e01, e10, e11, e20, e21, x0, x1, y0, y1, y2, hin, hfull, hlast⟩ := grid_facts4 t
    refine ⟨t, flush4_2 t, ?_⟩
    rw [mem_blk4]
    intro a
    match a with
    | ⟨0, _⟩ =>
      show win4_2.index t (0 : Fin 2) * 8192 ≤ ((i : S1700000x64.Idx) 0).val
        ∧ ((i : S1700000x64.Idx) 0).val < win4_2.index t (0 : Fin 2) * 8192 + win4_2.xsize (grid4.coords t) (0 : Fin 2)
      rw [e20]
      by_cases h : (t.val + 1) * 8192 ≤ 1700000
      · rw [hfull h]; omega
      · have := hlast (by omega); omega
    | ⟨1, _⟩ =>
      show win4_2.index t (1 : Fin 2) * 64 ≤ ((i : S1700000x64.Idx) 1).val
        ∧ ((i : S1700000x64.Idx) 1).val < win4_2.index t (1 : Fin 2) * 64 + win4_2.xsize (grid4.coords t) (1 : Fin 2)
      rw [e21, y2]; omega

end Cert.KernelIdeal.Hand

end
-- ==== Proof.Ideal.Scale3Val.lean ====
import proofs.«430458_j3401614098765_3_alg».proof.Proof.Ideal.Scale3
import proofs.«430458_j3401614098765_3_alg».proof.ReferenceIdeal
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

theorem pay7_apply (x0 : Vec F S8192x40 .f32) (x2 : Vec F S8192x1 .f32) (p : Fin 8192) (q : Fin 40) :
    k7_pay1 x0 x2 (ix2 p q) = FloatOps.mulf (x0 (ix2 p q)) (x2 (ix2 p (0 : Fin 1))) := by
  unfold k7_pay1
  show FloatOps.mulf (shapeCast S8192x40 x0 shapeCasts_S8192x40_S8192x40 (ix2 p q))
      (broadcastTo S8192x40 (shapeCast S8192x1 x2 shapeCasts_S8192x1_S8192x1) broadcasts_S8192x1_S8192x40 (ix2 p q)) = _
  rw [shapeCast_self, shapeCast_self]
  refine congrArg (FloatOps.mulf (x0 (ix2 p q))) ?_
  refine broadcastTo_apply x2 broadcasts_S8192x1_S8192x40 (ix2 p q) (ix2 p (0 : Fin 1)) fun a => ?_
  match a with
  | ⟨0, _⟩ => rfl
  | ⟨1, _⟩ => rfl

theorem scaled7_apply (A0 : S1700000x40.Idx → Elt F .f32) (A1 : S1700000x1.Idx → Elt F .f32)
    (hb : Cert.ReferenceIdeal.S1700000x1.BroadcastsInDim Cert.ReferenceIdeal.S1700000x40 ![0, 1])
    (i : S1700000x40.Idx) (r : Fin 1700000) (hr : r.val = (i 0).val) :
    mulf A0 (broadcastInDim Cert.ReferenceIdeal.S1700000x40 ![0, 1] hb A1) i = FloatOps.mulf (A0 i) (A1 (ix2 r (0 : Fin 1))) := by
  show FloatOps.mulf (A0 i) (broadcastInDim Cert.ReferenceIdeal.S1700000x40 ![0, 1] hb A1 i) = _
  refine congrArg (FloatOps.mulf (A0 i)) ?_
  exact broadcastInDim_apply _ hb A1 i (ix2 r (0 : Fin 1)) (fun a => match a with
    | ⟨0, _⟩ => by show r.val = if (1700000 : Nat) = 1 then 0 else (i 0).val; rw [if_neg (by decide)]; exact hr
    | ⟨1, _⟩ => by show 0 = if (1 : Nat) = 1 then 0 else (i 1).val; rw [if_pos rfl])

theorem fill7_apply_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

theorem grid_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_0.xsize (grid7.coords t) (0 : Fin 2) = win7_2.xsize (grid7.coords t) (0 : Fin 2)
    ∧ win7_1.xsize (grid7.coords t) (0 : Fin 2) = win7_2.xsize (grid7.coords t) (0 : Fin 2)
    ∧ win7_0.xsize (grid7.coords t) (1 : Fin 2) = 40
    ∧ win7_1.xsize (grid7.coords t) (1 : Fin 2) = 1
    ∧ win7_2.xsize (grid7.coords t) (1 : Fin 2) = 40
    ∧ t.val * 8192 + win7_2.xsize (grid7.coords t) (0 : Fin 2) ≤ 1700000
    ∧ ((t.val + 1) * 8192 ≤ 1700000 → win7_2.xsize (grid7.coords t) (0 : Fin 2) = 8192)
    ∧ (1700000 < (t.val + 1) * 8192 → t.val * 8192 + win7_2.xsize (grid7.coords t) (0 : Fin 2) = 1700000) :=
  (by decide +kernel : ∀ t : Fin grid7.N, _)

variable (V : (c : Dev nD) → (b : Ref sig .tc) → Buf (Elt F) ((c : Thread nD τ).loc b))

theorem rows7_apply (c : Dev nD) (t : Fin cfg7.N) (p : Fin 8192) (q : Fin 40)
    (hp : p.val < win7_2.xsize (grid7.coords t) (0 : Fin 2)) (i : S1700000x40.Idx)
    (hi0 : (i 0).val = t.val * 8192 + p.val) (hi1 : (i 1).val = q.val) :
    rows7 V c t (ix2 p q) = (V c main_v49 : S1700000x40.Idx → Elt F .f32) i := by
  obtain ⟨e00, e01, e10, e11, e20, e21, x0, x1, y0, y1, y2, _⟩ := grid_facts7 t
  unfold rows7
  refine (fill7_apply_of_lt win7_0 (grid7.coords t) (fun _ => Scalar.ofBits .f32 0#32) (iblk7 V c 0 t) (ix2 p q)
    (fun a => match a with
      | ⟨0, _⟩ => by show p.val < win7_0.xsize (grid7.coords t) (0 : Fin 2); rw [x0]; exact hp
      | ⟨1, _⟩ => by show q.val < win7_0.xsize (grid7.coords t) (1 : Fin 2); rw [y0]; exact q.isLt)).trans ?_
  unfold iblk7
  show V c main_v49 (((cfg7.win 0).blk t).view.emb _) = V c main_v49 i
  refine congrArg _ (funext fun a => Fin.ext ?_)
  match a with
  | ⟨0, _⟩ => show win7_0.index t (0 : Fin 2) * 8192 + 1 * p.val = (i 0).val; rw [e00, hi0]; omega
  | ⟨1, _⟩ => show win7_0.index t (1 : Fin 2) * 40 + 1 * q.val = (i 1).val; rw [e01, hi1]; omega

theorem coef7_apply (c : Dev nD) (t : Fin cfg7.N) (p : Fin 8192)
    (hp : p.val < win7_2.xsize (grid7.coords t) (0 : Fin 2)) (r : Fin 1700000)
    (hr : r.val = t.val * 8192 + p.val) :
    coef7 V c t (ix2 p (0 : Fin 1)) = (V c main_v50 : S1700000x1.Idx → Elt F .f32) (ix2 r (0 : Fin 1)) := by
  obtain ⟨e00, e01, e10, e11, e20, e21, x0, x1, y0, y1, y2, _⟩ := grid_facts7 t
  unfold coef7
  refine (fill7_apply_of_lt win7_1 (grid7.coords t) (fun _ => Scalar.ofBits .f32 0#32) (iblk7 V c 1 t) (ix2 p (0 : Fin 1))
    (fun a => match a with
      | ⟨0, _⟩ => by show p.val < win7_1.xsize (grid7.coords t) (0 : Fin 2); rw [x1]; exact hp
      | ⟨1, _⟩ => by show 0 < win7_1.xsize (grid7.coords t) (1 : Fin 2); rw [y1]; exact Nat.one_pos)).trans ?_
  unfold iblk7
  show V c main_v50 (((cfg7.win 1).blk t).view.emb _) = V c main_v50 (ix2 r (0 : Fin 1))
  refine congrArg _ (funext fun a => Fin.ext ?_)
  match a with
  | ⟨0, _⟩ => show win7_1.index t (0 : Fin 2) * 8192 + 1 * p.val = r.val; rw [e10, hr]; omega
  | ⟨1, _⟩ => show win7_1.index t (1 : Fin 2) * 1 + 1 * 0 = 0; rw [e11]

/-- What point `t` writes is block `t` of the array scaled row by row by the coefficients. -/
theorem flushed7_eq (c : Dev nD)
    (hb : Cert.ReferenceIdeal.S1700000x1.BroadcastsInDim Cert.ReferenceIdeal.S1700000x40 ![0, 1]) (t : Fin cfg7.N) :
    (dat7 (F := F) V c).flushed 2 t
      = ((cfg7.win 2).blk t).view.read (Elt F)
          (mulf (V c main_v49) (broadcastInDim Cert.ReferenceIdeal.S1700000x40 ![0, 1] hb (V c main_v50))) := by
  obtain ⟨e00, e01, e10, e11, e20, e21, x0, x1, y0, y1, y2, hin, _⟩ := grid_facts7 t
  show (cfg7.win 2).cut (grid7.coords t) ((dat7 (F := F) V c).after 2 t) = _
  dsimp only [dat7]
  funext y
  have hy0 : (y 0).val < win7_2.xsize (grid7.coords t) (0 : Fin 2) := (y 0).isLt
  have hy1 : (y 1).val < win7_2.xsize (grid7.coords t) (1 : Fin 2) := (y 1).isLt
  have hp : (y 0).val < 8192 := lt_of_lt_of_le hy0 (win7_2.xsize_le (grid7.coords t) (0 : Fin 2))
  rw [y2] at hy1
  have hr : t.val * 8192 + (y 0).val < 1700000 := by omega
  have hx : win7_2.xinj (grid7.coords t) y = ix2 (⟨(y 0).val, hp⟩ : Fin 8192) (⟨(y 1).val, hy1⟩ : Fin 40) :=
    funext fun a => match a with | ⟨0, _⟩ => rfl | ⟨1, _⟩ => rfl
  have hi0 : ((((cfg7.win 2).blk t).view.emb y : S1700000x40.Idx) 0).val = t.val * 8192 + (y 0).val := by
    show win7_2.index t (0 : Fin 2) * 8192 + 1 * (y 0).val = _; rw [e20]; omega
  have hi1 : ((((cfg7.win 2).blk t).view.emb y : S1700000x40.Idx) 1).val = (y 1).val := by
    show win7_2.index t (1 : Fin 2) * 40 + 1 * (y 1).val = _; rw [e21]; omega
  show k7_pay1 (rows7 V c t) (coef7 V c t) (win7_2.xinj (grid7.coords t) y)
    = mulf (V c main_v49 : S1700000x40.Idx → Elt F .f32) (broadcastInDim Cert.ReferenceIdeal.S1700000x40 ![0, 1] hb (V c main_v50 : S1700000x1.Idx → Elt F .f32))
        (((cfg7.win 2).blk t).view.emb y)
  rw [hx]
  refine (pay7_apply _ _ _ _).trans ?_
  refine Eq.trans ?_ (scaled7_apply _ _ hb _ (⟨t.val * 8192 + (y 0).val, hr⟩ : Fin 1700000) hi0.symm).symm
  exact congrArg₂ FloatOps.mulf
    (rows7_apply V c t (⟨(y 0).val, hp⟩ : Fin 8192) (⟨(y 1).val, hy1⟩ : Fin 40) hy0 _ hi0 hi1)
    (coef7_apply V c t (⟨(y 0).val, hp⟩ : Fin 8192) hy0 (⟨t.val * 8192 + (y 0).val, hr⟩ : Fin 1700000) rfl)

theorem mem_blk7 (t : Fin cfg7.N) (i : S1700000x40.Idx) :
    i ∈ ((cfg7.win 2).blk t).view.set ↔ ∀ a : Fin 2, win7_2.index t a * S8192x40.size a ≤ (i a).val
      ∧ (i a).val < win7_2.index t a * S8192x40.size a + win7_2.xsize (grid7.coords t) a := by
  show i ∈ ((View.whole main_v51).slice (win7_2.rect t)).set ↔ _
  rw [View.set_slice_whole, Rect.mem_set_unit]
  exact Iff.rfl

/-- Row r lies in block r / 8192, the last block cut at the array's end: the region leaves every row times its coefficient. -/
theorem scale7_arr (c : Dev nD)
    (hb : Cert.ReferenceIdeal.S1700000x1.BroadcastsInDim Cert.ReferenceIdeal.S1700000x40 ![0, 1]) :
    (dat7 (F := F) V c).arrAt 2 cfg7.N
      = mulf (V c main_v49) (broadcastInDim Cert.ReferenceIdeal.S1700000x40 ![0, 1] hb (V c main_v50)) :=
  (dat7 (F := F) V c).arrAt_eq_of_cover 2 _ (fun t _ => flushed7_eq V c hb t) fun i => by
    have hi0 : ((i : S1700000x40.Idx) 0).val < 1700000 := (i 0).isLt
    have hi1 : ((i : S1700000x40.Idx) 1).val < 40 := (i 1).isLt
    obtain ⟨t, ht⟩ : ∃ t : Fin cfg7.N, t.val = ((i : S1700000x40.Idx) 0).val / 8192 :=
      ⟨⟨((i : S1700000x40.Idx) 0).val / 8192, by rw [show cfg7.N = 208 from N_7]; omega⟩, rfl⟩
    obtain ⟨e00, e01, e10, e11, e20, e21, x0, x1, y0, y1, y2, hin, hfull, hlast⟩ := grid_facts7 t
    refine ⟨t, flush7_2 t, ?_⟩
    rw [mem_blk7]
    intro a
    match a with
    | ⟨0, _⟩ =>
      show win7_2.index t (0 : Fin 2) * 8192 ≤ ((i : S1700000x40.Idx) 0).val
        ∧ ((i : S1700000x40.Idx) 0).val < win7_2.index t (0 : Fin 2) * 8192 + win7_2.xsize (grid7.coords t) (0 : Fin 2)
      rw [e20]
      by_cases h : (t.val + 1) * 8192 ≤ 1700000
      · rw [hfull h]; omega
      · have := hlast (by omega); omega
    | ⟨1, _⟩ =>
      show win7_2.index t (1 : Fin 2) * 40 ≤ ((i : S1700000x40.Idx) 1).val
        ∧ ((i : S1700000x40.Idx) 1).val < win7_2.index t (1 : Fin 2) * 40 + win7_2.xsize (grid7.coords t) (1 : Fin 2)
      rw [e21, y2]; omega

end Cert.KernelIdeal.Hand

end
-- ==== Proof.Ideal.Bias1Val.lean ====
import proofs.«430458_j3401614098765_3_alg».proof.Proof.Ideal.Bias1
import proofs.«430458_j3401614098765_3_alg».proof.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

theorem k2_pay1_apply (x0 : Vec Ideal S10000x64 .f32) (x2 : Vec Ideal S1x64 .f32) (p : Fin 10000) (q : Fin 64) :
    k2_pay1 x0 x2 (ix2 p q) = max (x0 (ix2 p q) + x2 (ix2 (0 : Fin 1) q)) (Scalar.ofBits (F := Ideal) .f32 0x00000000#32) := by
  unfold k2_pay1
  rw [maximumf_apply, addf_apply, shapeCast_self, shapeCast_self, broadcastTo_1b_ab_apply, broadcast_apply]

abbrev biasRelu2 (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32) :
    FVec Ideal Cert.ReferenceIdeal.S100000x64 .f32 :=
  maximumf (addf A (broadcastInDim Cert.ReferenceIdeal.S100000x64 ![0, 1] hb B))
    (broadcastInDim Cert.ReferenceIdeal.S100000x64 ![] hs (constant (F := Ideal) Cert.ReferenceIdeal.S_ .f32 0x00000000#32))

theorem biasRelu2_apply (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32) (r : Fin 100000) (q : Fin 64) :
    biasRelu2 hb hs A B (ix2 r q) = max (A (ix2 r q) + B (ix2 (0 : Fin 1) q)) (Scalar.ofBits (F := Ideal) .f32 0x00000000#32) := by
  unfold biasRelu2
  rw [maximumf_apply, addf_apply]
  have hrow : broadcastInDim Cert.ReferenceIdeal.S100000x64 ![0, 1] hb B (ix2 r q) = B (ix2 (0 : Fin 1) q) := by
    refine broadcastInDim_apply _ hb B (ix2 r q) (ix2 (0 : Fin 1) q) fun a => ?_
    match a with
    | ⟨0, _⟩ => rfl
    | ⟨1, _⟩ => exact (if_neg (show ¬ ((64 : Nat) = 1) by decide)).symm
  have hzero : broadcastInDim Cert.ReferenceIdeal.S100000x64 ![] hs (constant (F := Ideal) Cert.ReferenceIdeal.S_ .f32 0x00000000#32) (ix2 r q)
      = Scalar.ofBits (F := Ideal) .f32 0x00000000#32 :=
    broadcastInDim_apply _ hs _ (ix2 r q) ix0 fun a => a.elim0
  rw [hrow, hzero]

theorem point2 (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32)
    (x0 : Vec Ideal S10000x64 .f32) (x2 : Vec Ideal S1x64 .f32) (j : S10000x64.Idx) (i : Cert.ReferenceIdeal.S100000x64.Idx)
    (h0 : x0 j = A i) (h2 : ∀ q : Fin 64, x2 (ix2 (0 : Fin 1) q) = B (ix2 (0 : Fin 1) q)) (hi : (i 1).val = (j 1).val) :
    k2_pay1 x0 x2 j = biasRelu2 hb hs A B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi
  rw [k2_pay1_apply, biasRelu2_apply, h0, h2]

theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem flushed2_eq (V : (c : Dev nD) → (b : Ref sig .tc) → Buf (Elt Ideal) ((c : Thread nD τ).loc b)) (c : Dev nD)
    (hb : Cert.ReferenceIdeal.S1x64.BroadcastsInDim Cert.ReferenceIdeal.S100000x64 ![0, 1])
    (hs : Cert.ReferenceIdeal.S_.BroadcastsInDim Cert.ReferenceIdeal.S100000x64 ![]) (t : Fin cfg2.N) :
    (dat2 (F := Ideal) V c).flushed 2 t
      = ((cfg2.win 2).blk t).view.read (Elt Ideal) (biasRelu2 hb hs (V c main_v36) (V c main_v37)) := by
  show (cfg2.win 2).cut (grid2.coords t) ((dat2 (F := Ideal) V c).after 2 t) = _
  dsimp only [dat2]
  obtain ⟨e0, e1, e2, e3, e4, e5⟩ := idx_facts2 t
  funext j
  show k2_pay1 (iblk2 V c 0 t) (iblk2 V c 1 t) j = biasRelu2 hb hs (V c main_v36) (V c main_v37) (((cfg2.win 2).blk t).view.emb j)
  refine point2 hb hs (V c main_v36) (V c main_v37) (iblk2 V c 0 t) (iblk2 V c 1 t) j _ ?_ ?_ ?_
  · show V c main_v36 (((cfg2.win 0).blk t).view.emb j) = V c main_v36 (((cfg2.win 2).blk t).view.emb j)
    refine congrArg (V c main_v36) (funext fun a => Fin.ext ?_)
    match a with
    | ⟨0, _⟩ => show win2_0.index t (0 : Fin 2) * 10000 + 1 * (j 0).val = win2_2.index t (0 : Fin 2) * 10000 + 1 * (j 0).val; rw [e0]
    | ⟨1, _⟩ => show win2_0.index t (1 : Fin 2) * 64 + 1 * (j 1).val = win2_2.index t (1 : Fin 2) * 64 + 1 * (j 1).val; rw [e1]
  · intro q
    show V c main_v37 (((cfg2.win 1).blk t).view.emb (ix2 (0 : Fin 1) q)) = V c main_v37 (ix2 (0 : Fin 1) q)
    refine congrArg (V c main_v37) (funext fun a => Fin.ext ?_)
    match a with
    | ⟨0, _⟩ => show win2_1.index t (0 : Fin 2) * 1 + 1 * (0 : Fin 1).val = (0 : Fin 1).val; rw [e2]; rfl
    | ⟨1, _⟩ => show win2_1.index t (1 : Fin 2) * 64 + 1 * q.val = q.val; rw [e3]; omega
  · show win2_2.index t (1 : Fin 2) * 64 + 1 * (j 1).val = (j 1).val
    rw [e5]; omega

theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v38).slice (win2_2.rect t)).set ↔ _
  rw [View.set_slice_whole, Rect.mem_set_unit]
  exact Iff.rfl

theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e4, ht]; omega
  | ⟨1, _⟩ => show win2_2.index t (1 : Fin 2) * 64 ≤ (i 1).val ∧ (i 1).val < win2_2.index t (1 : Fin 2) * 64 + 64; rw [e5]; omega

/-- The ten row blocks tile the array: the region leaves the array plus the bias row, floored at zero. -/
theorem bias2_arr (V : (c : Dev nD) → (b : Ref sig .tc) → Buf (Elt Ideal) ((c : Thread nD τ).loc b)) (c : Dev nD)
    (hb : Cert.ReferenceIdeal.S1x64.BroadcastsInDim Cert.ReferenceIdeal.S100000x64 ![0, 1])
    (hs : Cert.ReferenceIdeal.S_.BroadcastsInDim Cert.ReferenceIdeal.S100000x64 ![]) :
    (dat2 (F := Ideal) V c).arrAt 2 cfg2.N
      = (maximumf (addf (V c main_v36 : FVec Ideal Cert.ReferenceIdeal.S100000x64 .f32) (broadcastInDim Cert.ReferenceIdeal.S100000x64 ![0, 1] hb (V c main_v37 : FVec Ideal Cert.ReferenceIdeal.S1x64 .f32)))
          (broadcastInDim Cert.ReferenceIdeal.S100000x64 ![] hs (constant (F := Ideal) Cert.ReferenceIdeal.S_ .f32 0x00000000#32)) : FVec Ideal Cert.ReferenceIdeal.S100000x64 .f32) :=
  (dat2 (F := Ideal) V c).arrAt_eq_of_cover 2 (biasRelu2 hb hs (V c main_v36) (V c main_v37)) (fun t _ => flushed2_eq V c hb hs t) cover2

end Cert.KernelIdeal.Hand

end
-- ==== Proof.Ideal.Bias2Val.lean ====
import proofs.«430458_j3401614098765_3_alg».proof.Proof.Ideal.Bias2
import proofs.«430458_j3401614098765_3_alg».proof.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

theorem k5_pay1_apply (x0 : Vec Ideal S10000x64 .f32) (x2 : Vec Ideal S1x64 .f32) (p : Fin 10000) (q : Fin 64) :
    k5_pay1 x0 x2 (ix2 p q) = max (x0 (ix2 p q) + x2 (ix2 (0 : Fin 1) q)) (Scalar.ofBits (F := Ideal) .f32 0x00000000#32) := by
  unfold k5_pay1
  rw [maximumf_apply, addf_apply, shapeCast_self, shapeCast_self, broadcastTo_1b_ab_apply, broadcast_apply]

abbrev biasRelu5 (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32) :
    FVec Ideal Cert.ReferenceIdeal.S100000x64 .f32 :=
  maximumf (addf A (broadcastInDim Cert.ReferenceIdeal.S100000x64 ![0, 1] hb B))
    (broadcastInDim Cert.ReferenceIdeal.S100000x64 ![] hs (constant (F := Ideal) Cert.ReferenceIdeal.S_ .f32 0x00000000#32))

theorem biasRelu5_apply (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32) (r : Fin 100000) (q : Fin 64) :
    biasRelu5 hb hs A B (ix2 r q) = max (A (ix2 r q) + B (ix2 (0 : Fin 1) q)) (Scalar.ofBits (F := Ideal) .f32 0x00000000#32) := by
  unfold biasRelu5
  rw [maximumf_apply, addf_apply]
  have hrow : broadcastInDim Cert.ReferenceIdeal.S100000x64 ![0, 1] hb B (ix2 r q) = B (ix2 (0 : Fin 1) q) := by
    refine broadcastInDim_apply _ hb B (ix2 r q) (ix2 (0 : Fin 1) q) fun a => ?_
    match a with
    | ⟨0, _⟩ => rfl
    | ⟨1, _⟩ => exact (if_neg (show ¬ ((64 : Nat) = 1) by decide)).symm
  have hzero : broadcastInDim Cert.ReferenceIdeal.S100000x64 ![] hs (constant (F := Ideal) Cert.ReferenceIdeal.S_ .f32 0x00000000#32) (ix2 r q)
      = Scalar.ofBits (F := Ideal) .f32 0x00000000#32 :=
    broadcastInDim_apply _ hs _ (ix2 r q) ix0 fun a => a.elim0
  rw [hrow, hzero]

theorem point5 (hb : Cert.ReferenceIdeal.S1x64.BroadcastsInDim Cert.ReferenceIdeal.S100000x64 ![0, 1])
    (hs : Cert.ReferenceIdeal.S_.BroadcastsInDim Cert.ReferenceIdeal.S100000x64 ![])
    (A : FVec Ideal Cert.ReferenceIdeal.S100000x64 .f32) (B : FVec Ideal Cert.ReferenceIdeal.S1x64 .f32)
    (x0 : Vec Ideal S10000x64 .f32) (x2 : Vec Ideal S1x64 .f32) (j : S10000x64.Idx) (i : Cert.ReferenceIdeal.S100000x64.Idx)
    (h0 : x0 j = A i) (h2 : ∀ q : Fin 64, x2 (ix2 (0 : Fin 1) q) = B (ix2 (0 : Fin 1) q)) (hi : (i 1).val = (j 1).val) :
    k5_pay1 x0 x2 j = biasRelu5 hb hs A B i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi
  rw [k5_pay1_apply, biasRelu5_apply, h0, h2]

theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem flushed5_eq (V : (c : Dev nD) → (b : Ref sig .tc) → Buf (Elt Ideal) ((c : Thread nD τ).loc b)) (c : Dev nD)
    (hb : Cert.ReferenceIdeal.S1x64.BroadcastsInDim Cert.ReferenceIdeal.S100000x64 ![0, 1])
    (hs : Cert.ReferenceIdeal.S_.BroadcastsInDim Cert.ReferenceIdeal.S100000x64 ![]) (t : Fin cfg5.N) :
    (dat5 (F := Ideal) V c).flushed 2 t
      = ((cfg5.win 2).blk t).view.read (Elt Ideal) (biasRelu5 hb hs (V c main_v45) (V c main_v46)) := by
  show (cfg5.win 2).cut (grid5.coords t) ((dat5 (F := Ideal) V c).after 2 t) = _
  dsimp only [dat5]
  obtain ⟨e0, e1, e2, e3, e4, e5⟩ := idx_facts5 t
  funext j
  show k5_pay1 (iblk5 V c 0 t) (iblk5 V c 1 t) j = biasRelu5 hb hs (V c main_v45) (V c main_v46) (((cfg5.win 2).blk t).view.emb j)
  refine point5 hb hs (V c main_v45) (V c main_v46) (iblk5 V c 0 t) (iblk5 V c 1 t) j _ ?_ ?_ ?_
  · show V c main_v45 (((cfg5.win 0).blk t).view.emb j) = V c main_v45 (((cfg5.win 2).blk t).view.emb j)
    refine congrArg (V c main_v45) (funext fun a => Fin.ext ?_)
    match a with
    | ⟨0, _⟩ => show win5_0.index t (0 : Fin 2) * 10000 + 1 * (j 0).val = win5_2.index t (0 : Fin 2) * 10000 + 1 * (j 0).val; rw [e0]
    | ⟨1, _⟩ => show win5_0.index t (1 : Fin 2) * 64 + 1 * (j 1).val = win5_2.index t (1 : Fin 2) * 64 + 1 * (j 1).val; rw [e1]
  · intro q
    show V c main_v46 (((cfg5.win 1).blk t).view.emb (ix2 (0 : Fin 1) q)) = V c main_v46 (ix2 (0 : Fin 1) q)
    refine congrArg (V c main_v46) (funext fun a => Fin.ext ?_)
    match a with
    | ⟨0, _⟩ => show win5_1.index t (0 : Fin 2) * 1 + 1 * (0 : Fin 1).val = (0 : Fin 1).val; rw [e2]; rfl
    | ⟨1, _⟩ => show win5_1.index t (1 : Fin 2) * 64 + 1 * q.val = q.val; rw [e3]; omega
  · show win5_2.index t (1 : Fin 2) * 64 + 1 * (j 1).val = (j 1).val
    rw [e5]; omega

theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v47).slice (win5_2.rect t)).set ↔ _
  rw [View.set_slice_whole, Rect.mem_set_unit]
  exact Iff.rfl

theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5⟩ := idx_facts5 t
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; rw [e4, ht]; omega
  | ⟨1, _⟩ => show win5_2.index t (1 : Fin 2) * 64 ≤ (i 1).val ∧ (i 1).val < win5_2.index t (1 : Fin 2) * 64 + 64; rw [e5]; omega

/-- The ten row blocks tile the array: the region leaves the array plus the bias row, floored at zero. -/
theorem bias5_arr (V : (c : Dev nD) → (b : Ref sig .tc) → Buf (Elt Ideal) ((c : Thread nD τ).loc b)) (c : Dev nD)
    (hb : Cert.ReferenceIdeal.S1x64.BroadcastsInDim Cert.ReferenceIdeal.S100000x64 ![0, 1])
    (hs : Cert.ReferenceIdeal.S_.BroadcastsInDim Cert.ReferenceIdeal.S100000x64 ![]) :
    (dat5 (F := Ideal) V c).arrAt 2 cfg5.N
      = (maximumf (addf (V c main_v45 : FVec Ideal Cert.ReferenceIdeal.S100000x64 .f32) (broadcastInDim Cert.ReferenceIdeal.S100000x64 ![0, 1] hb (V c main_v46 : FVec Ideal Cert.ReferenceIdeal.S1x64 .f32)))
          (broadcastInDim Cert.ReferenceIdeal.S100000x64 ![] hs (constant (F := Ideal) Cert.ReferenceIdeal.S_ .f32 0x00000000#32)) : FVec Ideal Cert.ReferenceIdeal.S100000x64 .f32) :=
  (dat5 (F := Ideal) V c).arrAt_eq_of_cover 2 (biasRelu5 hb hs (V c main_v45) (V c main_v46)) (fun t _ => flushed5_eq V c hb hs t) cover5

end Cert.KernelIdeal.Hand

end
-- ==== Proof.Ideal.Bias3Val.lean ====
import proofs.«430458_j3401614098765_3_alg».proof.Proof.Ideal.Bias3
import proofs.«430458_j3401614098765_3_alg».proof.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

theorem k8_pay1_apply (x0 : Vec Ideal S10000x40 .f32) (x2 : Vec Ideal S1x40 .f32) (p : Fin 10000) (q : Fin 40) :
    k8_pay1 x0 x2 (ix2 p q) = x0 (ix2 p q) + x2 (ix2 (0 : Fin 1) q) := by
  unfold k8_pay1
  rw [addf_apply, shapeCast_self, shapeCast_self, broadcastTo_1b_ab_apply]

abbrev biasAdd8 (hb : Cert.ReferenceIdeal.S1x40.BroadcastsInDim Cert.ReferenceIdeal.S100000x40 ![0, 1])
    (A : FVec Ideal Cert.ReferenceIdeal.S100000x40 .f32) (B : FVec Ideal Cert.ReferenceIdeal.S1x40 .f32) :
    FVec Ideal Cert.ReferenceIdeal.S100000x40 .f32 :=
  addf A (broadcastInDim Cert.ReferenceIdeal.S100000x40 ![0, 1] hb B)

theorem biasAdd8_apply (hb : Cert.ReferenceIdeal.S1x40.BroadcastsInDim Cert.ReferenceIdeal.S100000x40 ![0, 1])
    (A : FVec Ideal Cert.ReferenceIdeal.S100000x40 .f32) (B : FVec Ideal Cert.ReferenceIdeal.S1x40 .f32) (r : Fin 100000) (q : Fin 40) :
    biasAdd8 hb A B (ix2 r q) = A (ix2 r q) + B (ix2 (0 : Fin 1) q) := by
  unfold biasAdd8
  rw [addf_apply]
  refine congrArg (fun z => A (ix2 r q) + z) ?_
  refine broadcastInDim_apply _ hb B (ix2 r q) (ix2 (0 : Fin 1) q) fun a => ?_
  match a with
  | ⟨0, _⟩ => rfl
  | ⟨1, _⟩ =>
    exact (if_neg (show ¬ ((40 : Nat) = 1) by decide)).symm

theorem point8 (hb : Cert.ReferenceIdeal.S1x40.BroadcastsInDim Cert.ReferenceIdeal.S100000x40 ![0, 1])
    (A : FVec Ideal Cert.ReferenceIdeal.S100000x40 .f32) (B : FVec Ideal Cert.ReferenceIdeal.S1x40 .f32)
    (x0 : Vec Ideal S10000x40 .f32) (x2 : Vec Ideal S1x40 .f32) (j : S10000x40.Idx) (i : Cert.ReferenceIdeal.S100000x40.Idx)
    (h0 : x0 j = A i) (h2 : ∀ q : Fin 40, x2 (ix2 (0 : Fin 1) q) = B (ix2 (0 : Fin 1) q)) (hi : (i 1).val = (j 1).val) :
    k8_pay1 x0 x2 j = biasAdd8 hb A B i := by
  obtain ⟨p, q, rfl⟩ : ∃ (p : Fin 10000) (q : Fin 40), j = ix2 p q := ⟨j 0, j 1, eq_ix2 j⟩
  obtain ⟨r, q', rfl⟩ : ∃ (r : Fin 100000) (q' : Fin 40), i = ix2 r q' := ⟨i 0, i 1, eq_ix2 i⟩
  obtain rfl : q' = q := Fin.ext hi
  rw [k8_pay1_apply, biasAdd8_apply, h0, h2]

theorem idx_facts8 : ∀ t : Fin cfg8.N, win8_0.index t (0 : Fin 2) = win8_2.index t (0 : Fin 2)
    ∧ win8_0.index t (1 : Fin 2) = win8_2.index t (1 : Fin 2)
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem flushed8_eq (V : (c : Dev nD) → (b : Ref sig .tc) → Buf (Elt Ideal) ((c : Thread nD τ).loc b)) (c : Dev nD)
    (hb : Cert.ReferenceIdeal.S1x40.BroadcastsInDim Cert.ReferenceIdeal.S100000x40 ![0, 1]) (t : Fin cfg8.N) :
    (dat8 (F := Ideal) V c).flushed 2 t
      = ((cfg8.win 2).blk t).view.read (Elt Ideal) (biasAdd8 hb (V c main_v54) (V c main_v55)) := by
  show (cfg8.win 2).cut (grid8.coords t) ((dat8 (F := Ideal) V c).after 2 t) = _
  dsimp only [dat8]
  obtain ⟨e0, e1, e2, e3, e4, e5⟩ := idx_facts8 t
  funext j
  show k8_pay1 (iblk8 V c 0 t) (iblk8 V c 1 t) j = biasAdd8 hb (V c main_v54) (V c main_v55) (((cfg8.win 2).blk t).view.emb j)
  refine point8 hb (V c main_v54) (V c main_v55) (iblk8 V c 0 t) (iblk8 V c 1 t) j _ ?_ ?_ ?_
  · show V c main_v54 (((cfg8.win 0).blk t).view.emb j) = V c main_v54 (((cfg8.win 2).blk t).view.emb j)
    refine congrArg (V c main_v54) (funext fun a => Fin.ext ?_)
    match a with
    | ⟨0, _⟩ => show win8_0.index t (0 : Fin 2) * 10000 + 1 * (j 0).val = win8_2.index t (0 : Fin 2) * 10000 + 1 * (j 0).val; rw [e0]
    | ⟨1, _⟩ => show win8_0.index t (1 : Fin 2) * 40 + 1 * (j 1).val = win8_2.index t (1 : Fin 2) * 40 + 1 * (j 1).val; rw [e1]
  · intro q
    show V c main_v55 (((cfg8.win 1).blk t).view.emb (ix2 (0 : Fin 1) q)) = V c main_v55 (ix2 (0 : Fin 1) q)
    refine congrArg (V c main_v55) (funext fun a => Fin.ext ?_)
    match a with
    | ⟨0, _⟩ => show win8_1.index t (0 : Fin 2) * 1 + 1 * (0 : Fin 1).val = (0 : Fin 1).val; rw [e2]; rfl
    | ⟨1, _⟩ => show win8_1.index t (1 : Fin 2) * 40 + 1 * q.val = q.val; rw [e3]; omega
  · show win8_2.index t (1 : Fin 2) * 40 + 1 * (j 1).val = (j 1).val
    rw [e5]; omega

theorem mem_blk8 (t : Fin cfg8.N) (i : S100000x40.Idx) :
    i ∈ ((cfg8.win 2).blk t).view.set ↔ ∀ a : Fin 2, win8_2.index t a * S10000x40.size a ≤ (i a).val ∧ (i a).val < win8_2.index t a * S10000x40.size a + S10000x40.size a := by
  show i ∈ ((View.whole main_v56).slice (win8_2.rect t)).set ↔ _
  rw [View.set_slice_whole, Rect.mem_set_unit]
  exact Iff.rfl

theorem cover8 (i : S100000x40.Idx) :
    ∃ t : Fin cfg8.N, (cfg8.win 2).flush t = true ∧ i ∈ ((cfg8.win 2).blk t).view.set := by
  have hi0 : (i 0).val < 100000 := (i 0).isLt
  have hi1 : (i 1).val < 40 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨e0, e1, e2, e3, e4, e5⟩ := idx_facts8 t
  refine ⟨t, flush8_2 t, ?_⟩
  rw [mem_blk8]
  intro a
  match a with
  | ⟨0, _⟩ => show win8_2.index t (0 : Fin 2) * 10000 ≤ (i 0).val ∧ (i 0).val < win8_2.index t (0 : Fin 2) * 10000 + 10000; rw [e4, ht]; omega
  | ⟨1, _⟩ => show win8_2.index t (1 : Fin 2) * 40 ≤ (i 1).val ∧ (i 1).val < win8_2.index t (1 : Fin 2) * 40 + 40; rw [e5]; omega

/-- The ten row blocks tile the array: the region leaves the array plus the bias row. -/
theorem bias8_arr (V : (c : Dev nD) → (b : Ref sig .tc) → Buf (Elt Ideal) ((c : Thread nD τ).loc b)) (c : Dev nD)
    (hb : Cert.ReferenceIdeal.S1x40.BroadcastsInDim Cert.ReferenceIdeal.S100000x40 ![0, 1]) :
    (dat8 (F := Ideal) V c).arrAt 2 cfg8.N
      = (addf (V c main_v54 : FVec Ideal Cert.ReferenceIdeal.S100000x40 .f32) (broadcastInDim Cert.ReferenceIdeal.S100000x40 ![0, 1] hb (V c main_v55 : FVec Ideal Cert.ReferenceIdeal.S1x40 .f32)) : FVec Ideal Cert.ReferenceIdeal.S100000x40 .f32) :=
  (dat8 (F := Ideal) V c).arrAt_eq_of_cover 2 (biasAdd8 hb (V c main_v54) (V c main_v55)) (fun t _ => flushed8_eq V c hb t) cover8

end Cert.KernelIdeal.Hand

end
-- ==== Proof.Ideal.Result.lean ====
import proofs.«430458_j3401614098765_3_alg».proof.Proof.Ideal.ResultCore
import proofs.«430458_j3401614098765_3_alg».proof.Proof.Ideal.Dense1Val
import proofs.«430458_j3401614098765_3_alg».proof.Proof.Ideal.Dense2Val
import proofs.«430458_j3401614098765_3_alg».proof.Proof.Ideal.Dense3Val
import proofs.«430458_j3401614098765_3_alg».proof.Proof.Ideal.Scale1Val
import proofs.«430458_j3401614098765_3_alg».proof.Proof.Ideal.Scale2Val
import proofs.«430458_j3401614098765_3_alg».proof.Proof.Ideal.Scale3Val
import proofs.«430458_j3401614098765_3_alg».proof.Proof.Ideal.Bias1Val
import proofs.«430458_j3401614098765_3_alg».proof.Proof.Ideal.Bias2Val
import proofs.«430458_j3401614098765_3_alg».proof.Proof.Ideal.Bias3Val

noncomputable section

namespace Cert.KernelIdeal.Hand

open Cert.KernelIdeal Cert.KernelIdeal.Gen
open Idealize.ShloMosaic Idealize.ShloMosaic.TcCoe Idealize.SL.Sem

/-- The result, with each region's whole-array value supplied. -/
theorem result_eq [Cert.Pre_finite_inputs.Facts] (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    Cert.ReferenceIdeal.Value.res_main_v82 (F := Ideal) m' c = W21 (F := Ideal) m c Cert.KernelIdeal.main_v56 :=
  result_eq_of m m' hpre hagree c
    (fun V c => dense0_arr V c) (fun V c hb => scale1_arr V c hb) (fun V c hb hs => bias2_arr V c hb hs)
    (fun V c => dense3_arr V c) (fun V c hb => scale4_arr V c hb) (fun V c hb hs => bias5_arr V c hb hs)
    (fun V c => dense6_arr V c) (fun V c hb => scale7_arr V c hb) (fun V c hb => bias8_arr V c hb)

end Cert.KernelIdeal.Hand

end
-- ==== Proof.lean ====
/- Three graph-convolution layers over 100000 nodes and 1700000 messages (the edges and one self-loop a node): each layer
   multiplies the node features by a weight, takes the rows at the messages' sources, scales each by its coefficient, sums
   them at the destinations and adds a bias, rectified in the first two layers. Computed block by block or whole, over the
   extended reals each step is the same function; the source indices are in range, so the take never meets its fill value. -/
import proofs.«430458_j3401614098765_3_alg».proof.Defs
import proofs.«430458_j3401614098765_3_alg».proof.Proof.Gen.Kernel
import proofs.«430458_j3401614098765_3_alg».proof.Proof.Gen.KernelIdeal
import proofs.«430458_j3401614098765_3_alg».proof.Proof.Gen.ReferenceIdeal
import proofs.«430458_j3401614098765_3_alg».proof.Proof.Gen.Pre_finite_inputs
import proofs.«430458_j3401614098765_3_alg».proof.Proof.Bits.Run
import proofs.«430458_j3401614098765_3_alg».proof.Proof.Ideal.Run
import proofs.«430458_j3401614098765_3_alg».proof.Proof.Ideal.Result
import proofs.«430458_j3401614098765_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.run_main (F := Bits) m ρ

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at one and the same composition of the arguments. -/
theorem algebraic : Cert.algebraic_KernelIdeal_ReferenceIdeal := by
  intro m ρ m' ρ' hpre hagree
  refine ⟨fun c => Cert.KernelIdeal.Hand.W21 (F := Ideal) m c Cert.KernelIdeal.main_v56,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.KernelIdeal.Hand.result_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
